-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S65536x16 : Shape := ⟨2, ![65536, 16]⟩
abbrev S32x1001x64 : Shape := ⟨3, ![32, 1001, 64]⟩
abbrev S32x64 : Shape := ⟨2, ![32, 64]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S32x1001x64 : S_.BroadcastsInDim S32x1001x64 (![] : Fin 0 → Fin S32x1001x64.rank)
  reducesTo_S32x1001x64_S_d0_1_2 : S32x1001x64.ReducesTo [0, 1, 2] S_
  bcast_S_S32x64 : S_.BroadcastsInDim S32x64 (![] : Fin 0 → Fin S32x64.rank)
  reducesTo_S32x64_S_d0_1 : S32x64.ReducesTo [0, 1] S_
  bcast_S_S65536x32 : S_.BroadcastsInDim S65536x32 (![] : Fin 0 → Fin S65536x32.rank)
  reducesTo_S65536x32_S_d0_1 : S65536x32.ReducesTo [0, 1] S_

variable [Facts]

def fn_part1 {F : FTy → Type} [FloatOps F] (main_arg0 : IVec S65536x32 32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_c_6 : IVec S_ 32 := constantI S_ 32 0#32
  let main_v19 : IVec S65536x32 32 := broadcastInDim S65536x32 ![] bcast_S_S65536x32 main_c_6
  let main_v20 : IVec S65536x32 1 := cmpi .sge main_arg0 main_v19
  let main_c_7 : IVec S_ 32 := constantI S_ 32 1001#32
  let main_v21 : IVec S65536x32 32 := broadcastInDim S65536x32 ![] bcast_S_S65536x32 main_c_7
  let main_v22 : IVec S65536x32 1 := cmpi .slt main_arg0 main_v21
  let main_v23 : IVec S65536x32 1 := andi main_v20 main_v22
  let main_c_8 : IVec S_ 1 := constantI S_ 1 1#1
  let main_v24 : IVec S_ 1 := (fun x v => Host.reduce IntOp.andi x v reducesTo_S65536x32_S_d0_1 h_S_) main_v23 main_c_8
  let main_v25 : IVec S_ 1 := andi main_v18 main_v24
  main_v25

def fn {F : FTy → Type} [FloatOps F] (main_arg0 : IVec S65536x32 32) (main_arg1 : FVec F S65536x16 .f32) (main_arg2 : FVec F S32x1001x64 .f32) (main_arg3 : FVec F S32x64 .f32) (main_arg4 : FVec F S32x64 .f32) : IVec S_ 1 :=
  let main_v0 : FVec F S65536x16 .f32 := Host.absf main_arg1
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S32x1001x64 .f32 := Host.absf main_arg2
  let main_cst_0 : FVec F S_ .f32 := constant S_ .f32 0x7F800000#32
  let main_v5 : FVec F S32x1001x64 .f32 := broadcastInDim S32x1001x64 ![] bcast_S_S32x1001x64 main_cst_0
  let main_v6 : IVec S32x1001x64 1 := cmpf .olt main_v4 main_v5
  let main_c_1 : IVec S_ 1 := constantI S_ 1 1#1
  let main_v7 : IVec S_ 1 := (fun x v => Host.reduce IntOp.andi x v reducesTo_S32x1001x64_S_d0_1_2 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg0 main_v13 main_v16
-- ==== Kernel.lean ====
abbrev S65536x32 : Shape := ⟨2, ![65536, 32]⟩
abbrev S65536x16 : Shape := ⟨2, ![65536, 16]⟩
abbrev S32x1001x64 : Shape := ⟨3, ![32, 1001, 64]⟩
abbrev S32x64 : Shape := ⟨2, ![32, 64]⟩
abbrev S256x32 : Shape := ⟨2, ![256, 32]⟩
abbrev S1x1001x64 : Shape := ⟨3, ![1, 1001, 64]⟩
abbrev S1001x64 : Shape := ⟨2, ![1001, 64]⟩
abbrev S256x1 : Shape := ⟨2, ![256, 1]⟩
abbrev S256 : Shape := ⟨1, ![256]⟩
abbrev S256x1001 : Shape := ⟨2, ![256, 1001]⟩
abbrev S256x64 : Shape := ⟨2, ![256, 64]⟩
abbrev S1x64 : Shape := ⟨2, ![1, 64]⟩
abbrev S64 : Shape := ⟨1, ![64]⟩
abbrev S_ : Shape := ⟨0, ![]⟩
abbrev S65536x2064 : Shape := ⟨2, ![65536, 2064]⟩
abbrev S256x16 : Shape := ⟨2, ![256, 16]⟩
abbrev S256x2064 : Shape := ⟨2, ![256, 2064]⟩
abbrev S256x128 : Shape := ⟨2, ![256, 128]⟩

abbrev nBuf : Space → Nat
  | .hbm => 23
  | .vmem => 18
  | .smem => 0
  | _ => 0

abbrev bufTy : (tb : Table) → Fin (tcTables nBuf tb) → BufTy
  | .hbm, ⟨0, _⟩ => ⟨S65536x32, .i32⟩
  | .hbm, ⟨1, _⟩ => ⟨S65536x16, .f32⟩
  | .hbm, ⟨2, _⟩ => ⟨S32x1001x64, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S32x64, .f32⟩
  | .hbm, ⟨10, _⟩ => ⟨S_, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S_, .f32⟩
  | .hbm, ⟨16, _⟩ => ⟨S32x64, .f32⟩
  | .hbm, ⟨17, _⟩ => ⟨S32x64, .f32⟩
  | .hbm, ⟨18, _⟩ => ⟨S_, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S65536x2064, .f32⟩
  | .local _ .vmem, ⟨0, _⟩ => ⟨S256x32, .i32⟩
  | .local _ .vmem, ⟨1, _⟩ => ⟨S256x32, .i32⟩
  | .local _ .vmem, ⟨2, _⟩ => ⟨S32x1001x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S256x32, .i32⟩
  | .local _ .vmem, ⟨8, _⟩ => ⟨S256x32, .i32⟩
  | .local _ .vmem, ⟨9, _⟩ => ⟨S32x1001x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | .local _ .vmem, ⟨14, _⟩ => ⟨S256x16, .f32⟩
  | .local _ .vmem, ⟨15, _⟩ => ⟨S256x16, .f32⟩
  | .local _ .vmem, ⟨16, _⟩ => ⟨S256x2064, .f32⟩
  | .local _ .vmem, ⟨17, _⟩ => ⟨S256x2064, .f32⟩
  | _, _ => ⟨S65536x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1001x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1001x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2064 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S256x32_S256x32_0_0 : ∀ a, (![0, 0] : Fin 2 → Nat) a + S256x32.size a ≤ S256x32.size a
  h_S256x32 : 0 < S256x32.numel
  inb_S32x1001x64_S1x1001x64_0_0_0 : ∀ a, (![0, 0, 0] : Fin 3 → Nat) a + S1x1001x64.size a ≤ S32x1001x64.size a
  h_S1x1001x64 : 0 < S1x1001x64.numel
  shapeCasts_S1x1001x64_S1001x64 : S1x1001x64.ShapeCasts S1001x64
  slices_S256x32_o0_0_S256x1 : S256x32.Slices ![0, 0] S256x1
  shapeCasts_S256x1_S256 : S256x1.ShapeCasts S256
  iota_S256x1001_d1_w32 : S256x1001.Iotas .tc 32 [1]
  shapeCasts_S256_S256x1 : S256.ShapeCasts S256x1
  broadcasts_S256x1_S256x1001 : S256x1.Broadcasts S256x1001
  natLt_1_32 : 1 < 32
  inb_S32x64_S1x64_0_0 : ∀ a, (![0, 0] : Fin 2 → Nat) a + S1x64.size a ≤ S32x64.size a
  h_S1x64 : 0 < S1x64.numel
  shapeCasts_S1x64_S64 : S1x64.ShapeCasts S64
  reduces_S256x64_S64 : S256x64.Reduces [0] S64
  shapeCasts_S64_S1x64 : S64.ShapeCasts S1x64
  inb_S32x1001x64_S1x1001x64_1_0_0 : ∀ a, (![1, 0, 0] : Fin 3 → Nat) a + S1x1001x64.size a ≤ S32x1001x64.size a
  slices_S256x32_o0_1_S256x1 : S256x32.Slices ![0, 1] S256x1
  inb_S32x64_S1x64_1_0 : ∀ a, (![1, 0] : Fin 2 → Nat) a + S1x64.size a ≤ S32x64.size a
  inb_S32x1001x64_S1x1001x64_2_0_0 : ∀ a, (![2, 0, 0] : Fin 3 → Nat) a + S1x1001x64.size a ≤ S32x1001x64.size a
  slices_S256x32_o0_2_S256x1 : S256x32.Slices ![0, 2] S256x1
  inb_S32x64_S1x64_2_0 : ∀ a, (![2, 0] : Fin 2 → Nat) a + S1x64.size a ≤ S32x64.size a
  inb_S32x1001x64_S1x1001x64_3_0_0 : ∀ a, (![3, 0, 0] : Fin 3 → Nat) a + S1x1001x64.size a ≤ S32x1001x64.size a
  slices_S256x32_o0_3_S256x1 : S256x32.Slices ![0, 3] S256x1
  inb_S32x64_S1x64_3_0 : ∀ a, (![3, 0] : Fin 2 → Nat) a + S1x64.size a ≤ S32x64.size a
  inb_S32x1001x64_S1x1001x64_4_0_0 : ∀ a, (![4, 0, 0] : Fin 3 → Nat) a + S1x1001x64.size a ≤ S32x1001x64.size a
  slices_S256x32_o0_4_S256x1 : S256x32.Slices ![0, 4] S256x1
  inb_S32x64_S1x64_4_0 : ∀ a, (![4, 0] : Fin 2 → Nat) a + S1x64.size a ≤ S32x64.size a
  inb_S32x1001x64_S1x1001x64_5_0_0 : ∀ a, (![5, 0, 0] : Fin 3 → Nat) a + S1x1001x64.size a ≤ S32x1001x64.size a
  slices_S256x32_o0_5_S256x1 : S256x32.Slices ![0, 5] S256x1
  inb_S32x64_S1x64_5_0 : ∀ a, (![5, 0] : Fin 2 → Nat) a + S1x64.size a ≤ S32x64.size a
  inb_S32x1001x64_S1x1001x64_6_0_0 : ∀ a, (![6, 0, 0] : Fin 3 → Nat) a + S1x1001x64.size a ≤ S32x1001x64.size a
  slices_S256x32_o0_6_S256x1 : S256x32.Slices ![0, 6] S256x1
  inb_S32x64_S1x64_6_0 : ∀ a, (![6, 0] : Fin 2 → Nat) a + S1x64.size a ≤ S32x64.size a
  inb_S32x1001x64_S1x1001x64_7_0_0 : ∀ a, (![7, 0, 0] : Fin 3 → Nat) a + S1x1001x64.size a ≤ S32x1001x64.size a
  slices_S256x32_o0_7_S256x1 : S256x32.Slices ![0, 7] S256x1
  inb_S32x64_S1x64_7_0 : ∀ a, (![7, 0] : Fin 2 → Nat) a + S1x64.size a ≤ S32x64.size a
  inb_S32x1001x64_S1x1001x64_8_0_0 : ∀ a, (![8, 0, 0] : Fin 3 → Nat) a + S1x1001x64.size a ≤ S32x1001x64.size a
  slices_S256x32_o0_8_S256x1 : S256x32.Slices ![0, 8] S256x1
  inb_S32x64_S1x64_8_0 : ∀ a, (![8, 0] : Fin 2 → Nat) a + S1x64.size a ≤ S32x64.size a
  inb_S32x1001x64_S1x1001x64_9_0_0 : ∀ a, (![9, 0, 0] : Fin 3 → Nat) a + S1x1001x64.size a ≤ S32x1001x64.size a
  slices_S256x32_o0_9_S256x1 : S256x32.Slices ![0, 9] S256x1
  inb_S32x64_S1x64_9_0 : ∀ a, (![9, 0] : Fin 2 → Nat) a + S1x64.size a ≤ S32x64.size a
  inb_S32x1001x64_S1x1001x64_10_0_0 : ∀ a, (![10, 0, 0] : Fin 3 → Nat) a + S1x1001x64.size a ≤ S32x1001x64.size a
  slices_S256x32_o0_10_S256x1 : S256x32.Slices ![0, 10] S256x1
  inb_S32x64_S1x64_10_0 : ∀ a, (![10, 0] : Fin 2 → Nat) a + S1x64.size a ≤ S32x64.size a
  inb_S32x1001x64_S1x1001x64_11_0_0 : ∀ a, (![11, 0, 0] : Fin 3 → Nat) a + S1x1001x64.size a ≤ S32x1001x64.size a
  slices_S256x32_o0_11_S256x1 : S256x32.Slices ![0, 11] S256x1
  inb_S32x64_S1x64_11_0 : ∀ a, (![11, 0] : Fin 2 → Nat) a + S1x64.size a ≤ S32x64.size a
  inb_S32x1001x64_S1x1001x64_12_0_0 : ∀ a, (![12, 0, 0] : Fin 3 → Nat) a + S1x1001x64.size a ≤ S32x1001x64.size a
  slices_S256x32_o0_12_S256x1 : S256x32.Slices ![0, 12] S256x1
  inb_S32x64_S1x64_12_0 : ∀ a, (![12, 0] : Fin 2 → Nat) a + S1x64.size a ≤ S32x64.size a
  inb_S32x1001x64_S1x1001x64_13_0_0 : ∀ a, (![13, 0, 0] : Fin 3 → Nat) a + S1x1001x64.size a ≤ S32x1001x64.size a
  slices_S256x32_o0_13_S256x1 : S256x32.Slices ![0, 13] S256x1
  inb_S32x64_S1x64_13_0 : ∀ a, (![13, 0] : Fin 2 → Nat) a + S1x64.size a ≤ S32x64.size a
  inb_S32x1001x64_S1x1001x64_14_0_0 : ∀ a, (![14, 0, 0] : Fin 3 → Nat) a + S1x1001x64.size a ≤ S32x1001x64.size a
  slices_S256x32_o0_14_S256x1 : S256x32.Slices ![0, 14] S256x1
  inb_S32x64_S1x64_14_0 : ∀ a, (![14, 0] : Fin 2 → Nat) a + S1x64.size a ≤ S32x64.size a
  inb_S32x1001x64_S1x1001x64_15_0_0 : ∀ a, (![15, 0, 0] : Fin 3 → Nat) a + S1x1001x64.size a ≤ S32x1001x64.size a
  slices_S256x32_o0_15_S256x1 : S256x32.Slices ![0, 15] S256x1
  inb_S32x64_S1x64_15_0 : ∀ a, (![15, 0] : Fin 2 → Nat) a + S1x64.size a ≤ S32x64.size a
  inb_S32x1001x64_S1x1001x64_16_0_0 : ∀ a, (![16, 0, 0] : Fin 3 → Nat) a + S1x1001x64.size a ≤ S32x1001x64.size a
  slices_S256x32_o0_16_S256x1 : S256x32.Slices ![0, 16] S256x1
  inb_S32x64_S1x64_16_0 : ∀ a, (![16, 0] : Fin 2 → Nat) a + S1x64.size a ≤ S32x64.size a
  inb_S32x1001x64_S1x1001x64_17_0_0 : ∀ a, (![17, 0, 0] : Fin 3 → Nat) a + S1x1001x64.size a ≤ S32x1001x64.size a
  slices_S256x32_o0_17_S256x1 : S256x32.Slices ![0, 17] S256x1
  inb_S32x64_S1x64_17_0 : ∀ a, (![17, 0] : Fin 2 → Nat) a + S1x64.size a ≤ S32x64.size a
  inb_S32x1001x64_S1x1001x64_18_0_0 : ∀ a, (![18, 0, 0] : Fin 3 → Nat) a + S1x1001x64.size a ≤ S32x1001x64.size a
  slices_S256x32_o0_18_S256x1 : S256x32.Slices ![0, 18] S256x1
  inb_S32x64_S1x64_18_0 : ∀ a, (![18, 0] : Fin 2 → Nat) a + S1x64.size a ≤ S32x64.size a
  inb_S32x1001x64_S1x1001x64_19_0_0 : ∀ a, (![19, 0, 0] : Fin 3 → Nat) a + S1x1001x64.size a ≤ S32x1001x64.size a
  slices_S256x32_o0_19_S256x1 : S256x32.Slices ![0, 19] S256x1
  inb_S32x64_S1x64_19_0 : ∀ a, (![19, 0] : Fin 2 → Nat) a + S1x64.size a ≤ S32x64.size a
  inb_S32x1001x64_S1x1001x64_20_0_0 : ∀ a, (![20, 0, 0] : Fin 3 → Nat) a + S1x1001x64.size a ≤ S32x1001x64.size a
  slices_S256x32_o0_20_S256x1 : S256x32.Slices ![0, 20] S256x1
  inb_S32x64_S1x64_20_0 : ∀ a, (![20, 0] : Fin 2 → Nat) a + S1x64.size a ≤ S32x64.size a
  inb_S32x1001x64_S1x1001x64_21_0_0 : ∀ a, (![21, 0, 0] : Fin 3 → Nat) a + S1x1001x64.size a ≤ S32x1001x64.size a
  slices_S256x32_o0_21_S256x1 : S256x32.Slices ![0, 21] S256x1
  inb_S32x64_S1x64_21_0 : ∀ a, (![21, 0] : Fin 2 → Nat) a + S1x64.size a ≤ S32x64.size a
  inb_S32x1001x64_S1x1001x64_22_0_0 : ∀ a, (![22, 0, 0] : Fin 3 → Nat) a + S1x1001x64.size a ≤ S32x1001x64.size a
  slices_S256x32_o0_22_S256x1 : S256x32.Slices ![0, 22] S256x1
  inb_S32x64_S1x64_22_0 : ∀ a, (![22, 0] : Fin 2 → Nat) a + S1x64.size a ≤ S32x64.size a
  inb_S32x1001x64_S1x1001x64_23_0_0 : ∀ a, (![23, 0, 0] : Fin 3 → Nat) a + S1x1001x64.size a ≤ S32x1001x64.size a
  slices_S256x32_o0_23_S256x1 : S256x32.Slices ![0, 23] S256x1
  inb_S32x64_S1x64_23_0 : ∀ a, (![23, 0] : Fin 2 → Nat) a + S1x64.size a ≤ S32x64.size a
  inb_S32x1001x64_S1x1001x64_24_0_0 : ∀ a, (![24, 0, 0] : Fin 3 → Nat) a + S1x1001x64.size a ≤ S32x1001x64.size a
  slices_S256x32_o0_24_S256x1 : S256x32.Slices ![0, 24] S256x1
  inb_S32x64_S1x64_24_0 : ∀ a, (![24, 0] : Fin 2 → Nat) a + S1x64.size a ≤ S32x64.size a
  inb_S32x1001x64_S1x1001x64_25_0_0 : ∀ a, (![25, 0, 0] : Fin 3 → Nat) a + S1x1001x64.size a ≤ S32x1001x64.size a
  slices_S256x32_o0_25_S256x1 : S256x32.Slices ![0, 25] S256x1
  inb_S32x64_S1x64_25_0 : ∀ a, (![25, 0] : Fin 2 → Nat) a + S1x64.size a ≤ S32x64.size a
  inb_S32x1001x64_S1x1001x64_26_0_0 : ∀ a, (![26, 0, 0] : Fin 3 → Nat) a + S1x1001x64.size a ≤ S32x1001x64.size a
  slices_S256x32_o0_26_S256x1 : S256x32.Slices ![0, 26] S256x1
  inb_S32x64_S1x64_26_0 : ∀ a, (![26, 0] : Fin 2 → Nat) a + S1x64.size a ≤ S32x64.size a
  inb_S32x1001x64_S1x1001x64_27_0_0 : ∀ a, (![27, 0, 0] : Fin 3 → Nat) a + S1x1001x64.size a ≤ S32x1001x64.size a
  slices_S256x32_o0_27_S256x1 : S256x32.Slices ![0, 27] S256x1
  inb_S32x64_S1x64_27_0 : ∀ a, (![27, 0] : Fin 2 → Nat) a + S1x64.size a ≤ S32x64.size a
  inb_S32x1001x64_S1x1001x64_28_0_0 : ∀ a, (![28, 0, 0] : Fin 3 → Nat) a + S1x1001x64.size a ≤ S32x1001x64.size a
  slices_S256x32_o0_28_S256x1 : S256x32.Slices ![0, 28] S256x1
  inb_S32x64_S1x64_28_0 : ∀ a, (![28, 0] : Fin 2 → Nat) a + S1x64.size a ≤ S32x64.size a
  inb_S32x1001x64_S1x1001x64_29_0_0 : ∀ a, (![29, 0, 0] : Fin 3 → Nat) a + S1x1001x64.size a ≤ S32x1001x64.size a
  slices_S256x32_o0_29_S256x1 : S256x32.Slices ![0, 29] S256x1
  inb_S32x64_S1x64_29_0 : ∀ a, (![29, 0] : Fin 2 → Nat) a + S1x64.size a ≤ S32x64.size a
  inb_S32x1001x64_S1x1001x64_30_0_0 : ∀ a, (![30, 0, 0] : Fin 3 → Nat) a + S1x1001x64.size a ≤ S32x1001x64.size a
  slices_S256x32_o0_30_S256x1 : S256x32.Slices ![0, 30] S256x1
  inb_S32x64_S1x64_30_0 : ∀ a, (![30, 0] : Fin 2 → Nat) a + S1x64.size a ≤ S32x64.size a
  inb_S32x1001x64_S1x1001x64_31_0_0 : ∀ a, (![31, 0, 0] : Fin 3 → Nat) a + S1x1001x64.size a ≤ S32x1001x64.size a
  slices_S256x32_o0_31_S256x1 : S256x32.Slices ![0, 31] S256x1
  inb_S32x64_S1x64_31_0 : ∀ a, (![31, 0] : Fin 2 → Nat) a + S1x64.size a ≤ S32x64.size a
  bcast_S_S32x64 : S_.BroadcastsInDim S32x64 (![] : Fin 0 → Fin S32x64.rank)
  broadcasts_S1x64_S256x64 : S1x64.Broadcasts S256x64
  concatenates_S256x64_S256x64_S256x128_d1 : Shape.Concatenates [S256x64, S256x64] S256x128 1
  inb_S256x2064_S256x128_0_0 : ∀ a, (![0, 0] : Fin 2 → Nat) a + S256x128.size a ≤ S256x2064.size a
  h_S256x128 : 0 < S256x128.numel
  inb_S256x2064_S256x128_0_128 : ∀ a, (![0, 128] : Fin 2 → Nat) a + S256x128.size a ≤ S256x2064.size a
  inb_S256x2064_S256x128_0_256 : ∀ a, (![0, 256] : Fin 2 → Nat) a + S256x128.size a ≤ S256x2064.size a
  inb_S256x2064_S256x128_0_384 : ∀ a, (![0, 384] : Fin 2 → Nat) a + S256x128.size a ≤ S256x2064.size a
  inb_S256x2064_S256x128_0_512 : ∀ a, (![0, 512] : Fin 2 → Nat) a + S256x128.size a ≤ S256x2064.size a
  inb_S256x2064_S256x128_0_640 : ∀ a, (![0, 640] : Fin 2 → Nat) a + S256x128.size a ≤ S256x2064.size a
  inb_S256x2064_S256x128_0_768 : ∀ a, (![0, 768] : Fin 2 → Nat) a + S256x128.size a ≤ S256x2064.size a
  inb_S256x2064_S256x128_0_896 : ∀ a, (![0, 896] : Fin 2 → Nat) a + S256x128.size a ≤ S256x2064.size a
  inb_S256x2064_S256x128_0_1024 : ∀ a, (![0, 1024] : Fin 2 → Nat) a + S256x128.size a ≤ S256x2064.size a
  inb_S256x2064_S256x128_0_1152 : ∀ a, (![0, 1152] : Fin 2 → Nat) a + S256x128.size a ≤ S256x2064.size a
  inb_S256x2064_S256x128_0_1280 : ∀ a, (![0, 1280] : Fin 2 → Nat) a + S256x128.size a ≤ S256x2064.size a
  inb_S256x2064_S256x128_0_1408 : ∀ a, (![0, 1408] : Fin 2 → Nat) a + S256x128.size a ≤ S256x2064.size a
  inb_S256x2064_S256x128_0_1536 : ∀ a, (![0, 1536] : Fin 2 → Nat) a + S256x128.size a ≤ S256x2064.size a
  inb_S256x2064_S256x128_0_1664 : ∀ a, (![0, 1664] : Fin 2 → Nat) a + S256x128.size a ≤ S256x2064.size a
  inb_S256x2064_S256x128_0_1792 : ∀ a, (![0, 1792] : Fin 2 → Nat) a + S256x128.size a ≤ S256x2064.size a
  inb_S256x2064_S256x128_0_1920 : ∀ a, (![0, 1920] : Fin 2 → Nat) a + S256x128.size a ≤ S256x2064.size a
  inb_S256x16_S256x16_0_0 : ∀ a, (![0, 0] : Fin 2 → Nat) a + S256x16.size a ≤ S256x16.size a
  h_S256x16 : 0 < S256x16.numel
  inb_S256x2064_S256x16_0_2048 : ∀ a, (![0, 2048] : Fin 2 → Nat) a + S256x16.size a ≤ S256x2064.size a
  dot_S256x1001_S1001x64_S256x64_1_0_0_1_n_n_wf : DotDims.WF S256x1001 S1001x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S65536x32.size a
  hwx0_0 : ∀ i : grid0.Coords, EltTy.bits .i32 = 32 ∨ (Rect.block (s := S65536x32) S256x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1001x64.size a ≤ S32x1001x64.size a
  hwx0_1 : ∀ i : grid0.Coords, EltTy.bits .f32 = 32 ∨ (Rect.block (s := S32x1001x64) S32x1001x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S65536x32.size a
  hwx1_0 : ∀ i : grid1.Coords, EltTy.bits .i32 = 32 ∨ (Rect.block (s := S65536x32) S256x32.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1001x64.size a ≤ S32x1001x64.size a
  hwx1_1 : ∀ i : grid1.Coords, EltTy.bits .f32 = 32 ∨ (Rect.block (s := S32x1001x64) S32x1001x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x16.size a ≤ S65536x16.size a
  hwx1_6 : ∀ i : grid1.Coords, EltTy.bits .f32 = 32 ∨ (Rect.block (s := S65536x16) S256x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2064.size a ≤ S65536x2064.size a
  hwx1_7 : ∀ i : grid1.Coords, EltTy.bits .f32 = 32 ∨ (Rect.block (s := S65536x2064) S256x2064.size (cc1_transform_7 i) (hinb1_7 i)).WholeWords (EltTy.packing .f32)

variable [Facts₀]

def dot_S256x1001_S1001x64_S256x64_1_0_0_1_n_n : DotDims S256x1001 S1001x64 S256x64 where
  lhsContracting := [1]
  rhsContracting := [0]
  lhsNonContracting := [0]
  rhsNonContracting := [1]
  lhsBatch := []
  rhsBatch := []
  wf := dot_S256x1001_S1001x64_S256x64_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x1001x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S32x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S32x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x1001x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S256x16.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12) S256x2064.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x32 : Shape := ⟨2, ![65536, 32]⟩
abbrev S65536x16 : Shape := ⟨2, ![65536, 16]⟩
abbrev S32x1001x64 : Shape := ⟨3, ![32, 1001, 64]⟩
abbrev S32x64 : Shape := ⟨2, ![32, 64]⟩
abbrev S32 : Shape := ⟨1, ![32]⟩
abbrev S1x32 : Shape := ⟨2, ![1, 32]⟩
abbrev S_ : Shape := ⟨0, ![]⟩
abbrev S65536x32x1 : Shape := ⟨3, ![65536, 32, 1]⟩
abbrev S65536x32x2 : Shape := ⟨3, ![65536, 32, 2]⟩
abbrev S65536x32x64 : Shape := ⟨3, ![65536, 32, 64]⟩
abbrev S1x32x64 : Shape := ⟨3, ![1, 32, 64]⟩
abbrev S65536x2048 : Shape := ⟨2, ![65536, 2048]⟩
abbrev S65536x2064 : Shape := ⟨2, ![65536, 2064]⟩

abbrev nBuf : Space → Nat
  | .hbm => 75
  | .vmem => 0
  | .smem => 0
  | _ => 0

abbrev bufTy : (tb : Table) → Fin (tcTables nBuf tb) → BufTy
  | .hbm, ⟨0, _⟩ => ⟨S65536x32, .i32⟩
  | .hbm, ⟨1, _⟩ => ⟨S65536x16, .f32⟩
  | .hbm, ⟨2, _⟩ => ⟨S32x1001x64, .f32⟩
  | .hbm, ⟨3, _⟩ => ⟨S32x64, .f32⟩
  | .hbm, ⟨4, _⟩ => ⟨S32x64, .f32⟩
  | .hbm, ⟨5, _⟩ => ⟨S32, .i32⟩
  | .hbm, ⟨6, _⟩ => ⟨S1x32, .i32⟩
  | .hbm, ⟨7, _⟩ => ⟨S_, .i32⟩
  | .hbm, ⟨8, _⟩ => ⟨S1x32, .i32⟩
  | .hbm, ⟨9, _⟩ => ⟨S1x32, .i1⟩
  | .hbm, ⟨10, _⟩ => ⟨S_, .i32⟩
  | .hbm, ⟨11, _⟩ => ⟨S1x32, .i32⟩
  | .hbm, ⟨12, _⟩ => ⟨S1x32, .i32⟩
  | .hbm, ⟨13, _⟩ => ⟨S1x32, .i32⟩
  | .hbm, ⟨14, _⟩ => ⟨S_, .i32⟩
  | .hbm, ⟨15, _⟩ => ⟨S65536x32, .i32⟩
  | .hbm, ⟨16, _⟩ => ⟨S65536x32, .i1⟩
  | .hbm, ⟨17, _⟩ => ⟨S_, .i32⟩
  | .hbm, ⟨18, _⟩ => ⟨S65536x32, .i32⟩
  | .hbm, ⟨19, _⟩ => ⟨S65536x32, .i32⟩
  | .hbm, ⟨20, _⟩ => ⟨S65536x32, .i32⟩
  | .hbm, ⟨21, _⟩ => ⟨S65536x32, .i32⟩
  | .hbm, ⟨22, _⟩ => ⟨S65536x32x1, .i32⟩
  | .hbm, ⟨23, _⟩ => ⟨S65536x32x1, .i32⟩
  | .hbm, ⟨24, _⟩ => ⟨S65536x32x2, .i32⟩
  | .hbm, ⟨25, _⟩ => ⟨S65536x32x64, .f32⟩
  | .hbm, ⟨26, _⟩ => ⟨S_, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S_, .i32⟩
  | .hbm, ⟨32, _⟩ => ⟨S_, .f32⟩
  | .hbm, ⟨33, _⟩ => ⟨S32x64, .f32⟩
  | .hbm, ⟨34, _⟩ => ⟨S1x32x64, .f32⟩
  | .hbm, ⟨35, _⟩ => ⟨S_, .f32⟩
  | .hbm, ⟨36, _⟩ => ⟨S1x32x64, .f32⟩
  | .hbm, ⟨37, _⟩ => ⟨S1x32x64, .f32⟩
  | .hbm, ⟨38, _⟩ => ⟨S65536x32x64, .f32⟩
  | .hbm, ⟨39, _⟩ => ⟨S65536x32x64, .f32⟩
  | .hbm, ⟨40, _⟩ => ⟨S65536x32x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S1x32x64, .f32⟩
  | .hbm, ⟨55, _⟩ => ⟨S65536x32x64, .f32⟩
  | .hbm, ⟨56, _⟩ => ⟨S65536x32x64, .f32⟩
  | .hbm, ⟨57, _⟩ => ⟨S_, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S1x32x64, .f32⟩
  | .hbm, ⟨62, _⟩ => ⟨S65536x32x64, .f32⟩
  | .hbm, ⟨63, _⟩ => ⟨S65536x32x64, .f32⟩
  | .hbm, ⟨64, _⟩ => ⟨S1x32x64, .f32⟩
  | .hbm, ⟨65, _⟩ => ⟨S65536x32x64, .f32⟩
  | .hbm, ⟨66, _⟩ => ⟨S65536x32x64, .f32⟩
  | .hbm, ⟨67, _⟩ => ⟨S1x32x64, .f32⟩
  | .hbm, ⟨68, _⟩ => ⟨S65536x32x64, .f32⟩
  | .hbm, ⟨69, _⟩ => ⟨S65536x32x64, .f32⟩
  | .hbm, ⟨70, _⟩ => ⟨S_, .f32⟩
  | .hbm, ⟨71, _⟩ => ⟨S65536x32x64, .f32⟩
  | .hbm, ⟨72, _⟩ => ⟨S65536x32x64, .f32⟩
  | .hbm, ⟨73, _⟩ => ⟨S65536x2048, .f32⟩
  | .hbm, ⟨74, _⟩ => ⟨S65536x2064, .f32⟩
  | _, _ => ⟨S65536x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call1_cst : Ref sig .tc := ⟨.hbm, 70, rfl⟩
abbrev main_call1_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S_S1x32 : S_.BroadcastsInDim S1x32 (![] : Fin 0 → Fin S1x32.rank)
  bcast_S_S65536x32 : S_.BroadcastsInDim S65536x32 (![] : Fin 0 → Fin S65536x32.rank)
  bcast_S1x32_S65536x32_0_1 : S1x32.BroadcastsInDim S65536x32 (![0, 1] : Fin 2 → Fin S65536x32.rank)
  bcast_S65536x32_S65536x32x1_0_1 : S65536x32.BroadcastsInDim S65536x32x1 (![0, 1] : Fin 2 → Fin S65536x32x1.rank)
  concatenates_S65536x32x1_S65536x32x1_S65536x32x2_d2 : Shape.Concatenates [S65536x32x1, S65536x32x1] S65536x32x2 2
  reducesTo_S65536x32x64_S32x64_d0 : S65536x32x64.ReducesTo [0] S32x64
  h_S_ : 0 < S_.numel
  bcast_S_S32x64 : S_.BroadcastsInDim S32x64 (![] : Fin 0 → Fin S32x64.rank)
  bcast_S32x64_S1x32x64_1_2 : S32x64.BroadcastsInDim S1x32x64 (![1, 2] : Fin 2 → Fin S1x32x64.rank)
  bcast_S_S1x32x64 : S_.BroadcastsInDim S1x32x64 (![] : Fin 0 → Fin S1x32x64.rank)
  bcast_S1x32x64_S65536x32x64_0_1_2 : S1x32x64.BroadcastsInDim S65536x32x64 (![0, 1, 2] : Fin 3 → Fin S65536x32x64.rank)
  bcast_S_S65536x32x64 : S_.BroadcastsInDim S65536x32x64 (![] : Fin 0 → Fin S65536x32x64.rank)
  shapeCasts_S65536x32x64_S65536x2048 : S65536x32x64.ShapeCasts S65536x2048
  concatenates_S65536x2048_S65536x16_S65536x2064_d1 : Shape.Concatenates [S65536x2048, S65536x16] S65536x2064 1
  gather_S32x1001x64_S65536x32x2_S65536x32x64_2_01_n_n_01_2_1164_wf : GatherDims.WF S32x1001x64 S65536x32x2 S65536x32x64 [2] [0, 1] [] [0, 1] [] 2 ![1, 1, 64]

variable [Facts₀]

def gather_S32x1001x64_S65536x32x2_S65536x32x64_2_01_n_n_01_2_1164 : GatherDims S32x1001x64 S65536x32x2 S65536x32x64 where
  offsetDims := [2]
  collapsedSliceDims := [0, 1]
  operandBatchingDims := []
  startIndicesBatchingDims := []
  startIndexMap := [0, 1]
  indexVectorDim := 2
  sliceSizes := ![1, 1, 64]
  wf := gather_S32x1001x64_S65536x32x2_S65536x32x64_2_01_n_n_01_2_1164_wf

class Facts : Prop extends Facts₀ where

variable [Facts]
-- ==== Proof.StatsRunABits.lean ====
import proofs.«413776_j39324720562872_4_alg».proof.Proof.Gen.Kernel.Launch
import proofs.«413776_j39324720562872_4_alg».proof.Proof.Gen.Kernel.Skeleton
import proofs.«413776_j39324720562872_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun0_A (c : Dev nD) (i : grid0.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (hc0 : (Scalar.cmpi .ne (Scalar.extui (Scalar.cmpi .eq (BitVec.ofNat 32 (i 0).val) 0#32)) 0#32) = 1#1)
    (x0 : Vec F S256x32 .i32) (x1 : Vec F S32x1001x64 .f32) :
    Σ' (L2 : List (View.Piece (Elt F) S32x64 .f32)) (L3 : List (View.Piece (Elt F) S32x64 .f32)) (LS0 : List (View.Piece (Elt F) S32x64 .f32)), { LS1 : List (View.Piece (Elt F) S32x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    isplitl [HS0]
    · iexists _; iexact HS0
    iexists _; iexact HS1

end Cert.Kernel.StatsRegion

end
-- ==== Proof.StatsRunBBits.lean ====
import proofs.«413776_j39324720562872_4_alg».proof.Proof.StatsRunABits

set_option maxRecDepth 16384

noncomputable section

namespace Cert.Kernel.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (hc0 : ¬ (Scalar.cmpi .ne (Scalar.extui (Scalar.cmpi .eq (BitVec.ofNat 32 (i 0).val) 0#32)) 0#32) = 1#1)
    (x0 : Vec F S256x32 .i32) (x1 : Vec F S32x1001x64 .f32) (xs0 xs1 : Vec F S32x64 .f32) :
    Σ' (L2 : List (View.Piece (Elt F) S32x64 .f32)) (L3 : List (View.Piece (Elt F) S32x64 .f32)) (LS0 : List (View.Piece (Elt F) S32x64 .f32)), { LS1 : List (View.Piece (Elt F) S32x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    isplitl [HS0]
    · iexists _; iexact HS0
    iexists _; iexact HS1

end Cert.Kernel.StatsRegion

end
-- ==== Proof.StatsRegionBits.lean ====
import proofs.«413776_j39324720562872_4_alg».proof.Proof.StatsRunBBits
import proofs.«413776_j39324720562872_4_alg».proof.Proof.Gen.Kernel.Launch
import proofs.«413776_j39324720562872_4_alg».proof.Proof.Gen.Kernel.Skeleton
import proofs.«413776_j39324720562872_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S256x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1001x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64 .f32 := win0_3.stage (cfg0.slots t 3)
abbrev hs0_3 (t : Fin cfg0.N) : (ms0_3 t).IsWhole := hstage0_3 ((cfg0.slots t 3).cast nbuf0_3)

abbrev scM0_0 : Memref sig .tc .vmem S32x64 .f32 := Memref.whole cc0_scratch0
abbrev scM0_1 : Memref sig .tc .vmem S32x64 .f32 := Memref.whole cc0_scratch1

def restScoped0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 c) ∗ (∃ r, prngReg c r)) := by
  unfold Pipeline.ΦA restScoped0; rw [scopedRest0_eq]; simp only [scM0_0, scM0_1, owns_whole]; try rfl

theorem canon_whole_readCov (v : View sig .tc .vmem S32x64 .f32) (L : List (View.Piece (Elt F) S32x64 .f32))
    {off : Fin S32x64.rank → Nat} (hz : off = fun _ => 0) (inb : ∀ a, off a + S32x64.size a ≤ S32x64.size a) :
    View.canon [(⟨Rect.unit off S32x64.size inb, v.readCov L (Rect.unit off S32x64.size inb).toLoadRect⟩ : View.Piece (Elt F) S32x64 .f32)]
      = View.canon L := by
  rw [View.canon_unit_zero hz, View.readCov_eq_canon']
  exact View.ld_unit_zero hz inb (View.canon L)

theorem zero_off2 : (![0, 0] : Fin S32x64.rank → Nat) = fun _ => 0 := by
  funext a; fin_cases a <;> rfl

section Runs

variable (c : Dev nD) (t : Fin cfg0.N)

def runA (h0 : t.val = 0) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk0 V c 0 t) (iblk0 V c 1 t)

def runB (h0 : ¬t.val = 0) (xs0 xs1 : Vec F S32x64 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk0 V c 0 t) (iblk0 V c 1 t) xs0 xs1

def accA (h0 : t.val = 0) : Vec F S32x64 .f32 × Vec F S32x64 .f32 :=
  (View.canon (runA V c t h0).2.2.1, View.canon (runA V c t h0).2.2.2.1)

def accB (h0 : ¬t.val = 0) (a : Vec F S32x64 .f32 × Vec F S32x64 .f32) : Vec F S32x64 .f32 × Vec F S32x64 .f32 :=
  (View.canon (runB V c t h0 a.1 a.2).2.2.1, View.canon (runB V c t h0 a.1 a.2).2.2.2.1)

theorem read_tiled (v : View sig .tc .vmem S32x64 .f32) (f : v.ty.Contents (Elt F)) (L : List (View.Piece (Elt F) S32x64 .f32))
    (size : Fin S32x64.rank → ℕ) (ht : View.Piece.tiledL L size = true) : v.read (Elt F) (v.writes (Elt F) f L) = View.canon L :=
  View.read_writes_eq_canon v f L (View.cover_of_tiledL L size ht)

theorem outA_2 (h0 : t.val = 0) : View.canon (runA V c t h0).1 = (accA V c t h0).1 := by
  unfold accA runA kernelRun0_A; dsimp only
  exact canon_whole_readCov _ _ zero_off2 _
theorem outA_3 (h0 : t.val = 0) : View.canon (runA V c t h0).2.1 = (accA V c t h0).2 := by
  unfold accA runA kernelRun0_A; dsimp only
  exact canon_whole_readCov _ _ zero_off2 _
theorem outB_2 (h0 : ¬t.val = 0) (a : Vec F S32x64 .f32 × Vec F S32x64 .f32) : View.canon (runB V c t h0 a.1 a.2).1 = (accB V c t h0 a).1 := by
  unfold accB runB kernelRun0_B; dsimp only
  exact canon_whole_readCov _ _ zero_off2 _
theorem outB_3 (h0 : ¬t.val = 0) (a : Vec F S32x64 .f32 × Vec F S32x64 .f32) : View.canon (runB V c t h0 a.1 a.2).2.1 = (accB V c t h0 a).2 := by
  unfold accB runB kernelRun0_B; dsimp only
  exact canon_whole_readCov _ _ zero_off2 _

end Runs

def acc0 (c : Dev nD) : (n : ℕ) → n < cfg0.N → Vec F S32x64 .f32 × Vec F S32x64 .f32
  | 0, hn => accA V c ⟨0, hn⟩ rfl
  | n + 1, hn => accB V c ⟨n + 1, hn⟩ (Nat.succ_ne_zero n) (acc0 c n (Nat.lt_of_succ_lt hn))

theorem acc0_A (c : Dev nD) (t : Fin cfg0.N) (h0 : t.val = 0) : acc0 V c t.val t.isLt = accA V c t h0 := by
  obtain ⟨n, hn⟩ := t
  cases n with
  | zero => exact rfl
  | succ n => exact absurd h0 (Nat.succ_ne_zero n)

theorem acc0_B (c : Dev nD) (t : Fin cfg0.N) (h0 : ¬t.val = 0) :
    acc0 V c t.val t.isLt = accB V c t h0 (acc0 V c (t.val - 1) (Nat.lt_of_le_of_lt (Nat.sub_le _ _) t.isLt)) := by
  obtain ⟨n, hn⟩ := t
  cases n with
  | zero => exact absurd rfl h0
  | succ n => exact rfl

def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ restScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ restScoped0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases h0 : t.val = 0
  · rw [acc0_A V c t h0, PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩⟩
    iapply ((runA V c t h0).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact read_tiled _ _ _ S32x64.size (by sl_kernel_rfl)
        isplitl [HS1]
        · unfold owns; iexists _; isplitr
          swap; · iexact HS1
          ipureintro; exact read_tiled _ _ _ S32x64.size (by sl_kernel_rfl)
        iexact HR
      iexact Hg
    isplitl [Ho]; · iexact Ho
    isplitl [H0]; · iexact H0
    isplitl [H1]; · iexact H1
    isplitl [H2]
    · unfold owns; iexists _; isplitr
      swap; · iexact H2
      ipureintro; exact (read_tiled _ _ _ S32x64.size (by sl_kernel_rfl)).trans (outA_2 V c t h0)
    unfold owns; iexists _; isplitr
    swap; · iexact H3
    ipureintro; exact (read_tiled _ _ _ S32x64.size (by sl_kernel_rfl)).trans (outA_3 V c t h0)
  · rw [acc0_B V c t h0, PhiS_castSucc V c t, PhiS_pos V c _ _ h0]
    iintro ⟨⟨⟨HS0, HS1, HR⟩, Hg⟩, Ho, ⟨%d0, H0⟩, ⟨%d1, H1⟩, ⟨%d2, H2⟩, ⟨%d3, H3⟩⟩
    iapply ((runB V c t h0 _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact read_tiled _ _ _ ![1, 64] (by sl_kernel_rfl)
        isplitl [HS1]
        · unfold owns; iexists _; isplitr
          swap; · iexact HS1
          ipureintro; exact read_tiled _ _ _ ![1, 64] (by sl_kernel_rfl)
        iexact HR
      iexact Hg
    isplitl [Ho]; · iexact Ho
    isplitl [H0]; · iexact H0
    isplitl [H1]; · iexact H1
    isplitl [H2]
    · unfold owns; iexists _; isplitr
      swap; · iexact H2
      ipureintro; exact (read_tiled _ _ _ S32x64.size (by sl_kernel_rfl)).trans (outB_2 V c t h0 _)
    unfold owns; iexists _; isplitr
    swap; · iexact H3
    ipureintro; exact (read_tiled _ _ _ S32x64.size (by sl_kernel_rfl)).trans (outB_3 V c t h0 _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 256 := N_0; omega)

end Cert.Kernel.StatsRegion

end
-- ==== Proof.NormRegionBits.lean ====
import proofs.«413776_j39324720562872_4_alg».proof.Proof.Gen.Kernel.Launch
import proofs.«413776_j39324720562872_4_alg».proof.Proof.Gen.Kernel.Skeleton
import proofs.«413776_j39324720562872_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NormRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in

noncomputable def kernelRun1 (c : Dev nD) (i : grid1.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (arg7 : Memref sig .tc .vmem S256x16 .f32) (harg7 : arg7.IsWhole) (arg8 : Memref sig .tc .vmem S256x2064 .f32) (harg8 : arg8.IsWhole)
    (x1 : Vec F S256x32 .i32) (x2 : Vec F S32x1001x64 .f32) (x3 x4 x5 x6 : Vec F S32x64 .f32) (x7 : Vec F S256x16 .f32) :
    { L8 : List (View.Piece (Elt F) S256x2064 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ owns (c : Thread nD τ) arg7 fullShare x7
                ∗ (∃ f, arg8.view.loc (c : Thread nD τ) ↦[arg8.view.set]{fullShare} arg8.view.writes (Elt F) f L8)) -∗ K ⟨⟩))
          ⊢ wp frame (wpE (defs₀ (F := F)) Variants.none c none) E (cc1__gather_bn_kernel i arg1 harg1 arg2 harg2 arg3 harg3 arg4 harg4 arg5 harg5 arg6 harg6 arg7 harg7 arg8 harg8) K } := by
  refine ⟨?_, fun E K => ?run⟩
  case run =>
    simp only [cc1__gather_bn_kernel_eq_skeleton]; unfold cc1__gather_bn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)
abbrev hs1_7 (t : Fin cfg1.N) : (st1_7 t).IsWhole := hstage1_7 ((cfg1.slots t 7).cast nbuf1_7)

def run1 (c : Dev nD) (t : Fin cfg1.N) :=
  kernelRun1 c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (iblk1 V c 0 t) (iblk1 V c 1 t) (iblk1 V c 2 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => View.canon (run1 V c t).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = View.canon (run1 V c t).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon _ _ _ (View.cover_of_tiledBy _ ![256, 16] (by sl_kernel_rfl))

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) :=
  Idealize.SL.BI.Entails.refl _

end Regions

end Cert.Kernel.NormRegion

end
-- ==== Proof.RunBits.lean ====
import proofs.«413776_j39324720562872_4_alg».proof.Proof.Gen.Kernel.Launch
import proofs.«413776_j39324720562872_4_alg».proof.Proof.Gen.Kernel.Skeleton
import proofs.«413776_j39324720562872_4_alg».proof.Proof.Gen.Kernel.Points
import proofs.«413776_j39324720562872_4_alg».proof.Proof.Gen.Kernel.Regions
import proofs.«413776_j39324720562872_4_alg».proof.Proof.StatsRegionBits
import proofs.«413776_j39324720562872_4_alg».proof.Proof.NormRegionBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (StatsRegion.dat0 (V0 m ρ) c).arrAt w cfg0.N
theorem W1_arr (c : Dev nD) (w : Fin cfg0.W) :
    W1 m ρ c (Proc.devRef .tc (Pipeline.arrRef spec0 w)) = (StatsRegion.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem hF0 (c : Dev nD) (w : Fin cfg0.W) : (StatsRegion.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (NormRegion.dat1 (V2 m ρ) c).arrAt w cfg1.N
theorem W3_arr (c : Dev nD) (w : Fin cfg1.W) :
    W3 m ρ c (Proc.devRef .tc (Pipeline.arrRef spec1 w)) = (NormRegion.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (NormRegion.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((StatsRegion.dat0 (V0 m ρ) c).arrAt_in w hin _).trans (StatsRegion.A_eq0 (V0 m ρ) c w))

theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((NormRegion.dat1 (V2 m ρ) c).arrAt_in w hin _).trans (NormRegion.A_eq1 (V2 m ρ) c w))

theorem V2_main_arg0 (c : Dev nD) : V2 m ρ c main_arg0 = m ((c : Thread nD τ).loc main_arg0) :=
  (W2_of m ρ c main_arg0 (by decide)).trans ((W1_in m ρ c 0 rfl).trans rfl)
theorem V2_main_arg1 (c : Dev nD) : V2 m ρ c main_arg1 = m ((c : Thread nD τ).loc main_arg1) :=
  (W2_of m ρ c main_arg1 (by decide)).trans ((W1_of_ne m ρ c main_arg1 (by decide)).trans rfl)
theorem V2_main_arg2 (c : Dev nD) : V2 m ρ c main_arg2 = m ((c : Thread nD τ).loc main_arg2) :=
  (W2_of m ρ c main_arg2 (by decide)).trans ((W1_in m ρ c 1 rfl).trans rfl)
theorem V2_main_arg3 (c : Dev nD) : V2 m ρ c main_arg3 = m ((c : Thread nD τ).loc main_arg3) :=
  (W2_of m ρ c main_arg3 (by decide)).trans ((W1_of_ne m ρ c main_arg3 (by decide)).trans rfl)
theorem V2_main_arg4 (c : Dev nD) : V2 m ρ c main_arg4 = m ((c : Thread nD τ).loc main_arg4) :=
  (W2_of m ρ c main_arg4 (by decide)).trans ((W1_of_ne m ρ c main_arg4 (by decide)).trans rfl)

theorem W3_main_arg0 (c : Dev nD) : W3 m ρ c (Proc.devRef .tc main_arg0) = m ((c : Thread nD τ).loc main_arg0) :=
  (W3_in m ρ c 0 rfl).trans (V2_main_arg0 m ρ c)
theorem W3_main_arg1 (c : Dev nD) : W3 m ρ c (Proc.devRef .tc main_arg1) = m ((c : Thread nD τ).loc main_arg1) :=
  (W3_in m ρ c 6 rfl).trans (V2_main_arg1 m ρ c)
theorem W3_main_arg2 (c : Dev nD) : W3 m ρ c (Proc.devRef .tc main_arg2) = m ((c : Thread nD τ).loc main_arg2) :=
  (W3_in m ρ c 1 rfl).trans (V2_main_arg2 m ρ c)
theorem W3_main_arg3 (c : Dev nD) : W3 m ρ c (Proc.devRef .tc main_arg3) = m ((c : Thread nD τ).loc main_arg3) :=
  (W3_in m ρ c 4 rfl).trans (V2_main_arg3 m ρ c)
theorem W3_main_arg4 (c : Dev nD) : W3 m ρ c (Proc.devRef .tc main_arg4) = m ((c : Thread nD τ).loc main_arg4) :=
  (W3_in m ρ c 5 rfl).trans (V2_main_arg4 m ρ c)

def pdats : (p : Fin 2) → (c : Dev nD) → Dat τ (Elt F) Unit ℕ (UR sig nD τ) ℕ (Pipeline.pin (pcfgs (F := F)) adm p) c
  | ⟨0, _⟩ => fun c => StatsRegion.dat0 (V0 m ρ) c
  | ⟨1, _⟩ => fun c => NormRegion.dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (StatsRegion.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (StatsRegion.A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (StatsRegion.hin0 (V0 m ρ) c)
    unfold Pipeline.ΦA
    iintro ⟨Hp, -, Hr⟩
    isplitl [Hr]; · iexact Hr
    iexact Hp
  hout c := by
    rw [Pipeline.ownSems0_none]
    refine BIBase.Entails.trans (StatsRegion.hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (NormRegion.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (NormRegion.A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (NormRegion.hin1 (V2 m ρ) c)
    unfold Pipeline.ΦA
    iintro ⟨Hp, -, Hr⟩
    isplitl [Hr]; · iexact Hr
    iexact Hp
  hout c := by
    rw [Pipeline.ownSems0_none]
    refine BIBase.Entails.trans (NormRegion.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]

theorem main_run (c : Dev nD) : main (F := F) c = Pipeline.Seg.run (segs m ρ) := (main_chain c).trans (by chain_rfl)

set_option backward.isDefEq.respectTransparency.types false in

theorem main_post : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (main_post m ρ)

theorem result : θ_run defs (onTc (τ := τ) (main (F := F))) ⟨m, fun _ => 0, ρ⟩ (fun r => ∀ c : Dev nD,
      r.2.mem ((c.tc : Thread nD τ).loc main_v12) = (NormRegion.dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v12 (by decide))).trans (W3_arr m ρ c 7),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (main_post m ρ)

end Cert.Kernel.Run

end
-- ==== Proof.StatsRunA.lean ====
import proofs.«413776_j39324720562872_4_alg».proof.Proof.Gen.KernelIdeal.Launch
import proofs.«413776_j39324720562872_4_alg».proof.Proof.Gen.KernelIdeal.Skeleton
import proofs.«413776_j39324720562872_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun0_A (c : Dev nD) (i : grid0.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (hc0 : (Scalar.cmpi .ne (Scalar.extui (Scalar.cmpi .eq (BitVec.ofNat 32 (i 0).val) 0#32)) 0#32) = 1#1)
    (x0 : Vec F S256x32 .i32) (x1 : Vec F S32x1001x64 .f32) :
    Σ' (L2 : List (View.Piece (Elt F) S32x64 .f32)) (L3 : List (View.Piece (Elt F) S32x64 .f32)) (LS0 : List (View.Piece (Elt F) S32x64 .f32)), { LS1 : List (View.Piece (Elt F) S32x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    isplitl [HS0]
    · iexists _; iexact HS0
    iexists _; iexact HS1

end Cert.KernelIdeal.StatsRegion

end
-- ==== Proof.StatsRunB.lean ====
import proofs.«413776_j39324720562872_4_alg».proof.Proof.StatsRunA

set_option maxRecDepth 16384

noncomputable section

namespace Cert.KernelIdeal.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (hc0 : ¬ (Scalar.cmpi .ne (Scalar.extui (Scalar.cmpi .eq (BitVec.ofNat 32 (i 0).val) 0#32)) 0#32) = 1#1)
    (x0 : Vec F S256x32 .i32) (x1 : Vec F S32x1001x64 .f32) (xs0 xs1 : Vec F S32x64 .f32) :
    Σ' (L2 : List (View.Piece (Elt F) S32x64 .f32)) (L3 : List (View.Piece (Elt F) S32x64 .f32)) (LS0 : List (View.Piece (Elt F) S32x64 .f32)), { LS1 : List (View.Piece (Elt F) S32x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    isplitl [HS0]
    · iexists _; iexact HS0
    iexists _; iexact HS1

end Cert.KernelIdeal.StatsRegion

end
-- ==== Proof.StatsRegion.lean ====
import proofs.«413776_j39324720562872_4_alg».proof.Proof.StatsRunB
import proofs.«413776_j39324720562872_4_alg».proof.Proof.Gen.KernelIdeal.Launch
import proofs.«413776_j39324720562872_4_alg».proof.Proof.Gen.KernelIdeal.Skeleton
import proofs.«413776_j39324720562872_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.StatsRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S256x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1001x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x64 .f32 := win0_3.stage (cfg0.slots t 3)
abbrev hs0_3 (t : Fin cfg0.N) : (ms0_3 t).IsWhole := hstage0_3 ((cfg0.slots t 3).cast nbuf0_3)

abbrev scM0_0 : Memref sig .tc .vmem S32x64 .f32 := Memref.whole cc0_scratch0
abbrev scM0_1 : Memref sig .tc .vmem S32x64 .f32 := Memref.whole cc0_scratch1

def restScoped0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg7_1), ((c : Thread nD τ).loc cc1_stg7_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 c) ∗ (∃ r, prngReg c r)) := by
  unfold Pipeline.ΦA restScoped0; rw [scopedRest0_eq]; simp only [scM0_0, scM0_1, owns_whole]; try rfl

theorem canon_whole_readCov (v : View sig .tc .vmem S32x64 .f32) (L : List (View.Piece (Elt F) S32x64 .f32))
    {off : Fin S32x64.rank → Nat} (hz : off = fun _ => 0) (inb : ∀ a, off a + S32x64.size a ≤ S32x64.size a) :
    View.canon [(⟨Rect.unit off S32x64.size inb, v.readCov L (Rect.unit off S32x64.size inb).toLoadRect⟩ : View.Piece (Elt F) S32x64 .f32)]
      = View.canon L := by
  rw [View.canon_unit_zero hz, View.readCov_eq_canon']
  exact View.ld_unit_zero hz inb (View.canon L)

theorem zero_off2 : (![0, 0] : Fin S32x64.rank → Nat) = fun _ => 0 := by
  funext a; fin_cases a <;> rfl

section Runs

variable (c : Dev nD) (t : Fin cfg0.N)

def runA (h0 : t.val = 0) :=
  kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk0 V c 0 t) (iblk0 V c 1 t)

def runB (h0 : ¬t.val = 0) (xs0 xs1 : Vec F S32x64 .f32) :=
  kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk0 V c 0 t) (iblk0 V c 1 t) xs0 xs1

def accA (h0 : t.val = 0) : Vec F S32x64 .f32 × Vec F S32x64 .f32 :=
  (View.canon (runA V c t h0).2.2.1, View.canon (runA V c t h0).2.2.2.1)

def accB (h0 : ¬t.val = 0) (a : Vec F S32x64 .f32 × Vec F S32x64 .f32) : Vec F S32x64 .f32 × Vec F S32x64 .f32 :=
  (View.canon (runB V c t h0 a.1 a.2).2.2.1, View.canon (runB V c t h0 a.1 a.2).2.2.2.1)

theorem read_tiled (v : View sig .tc .vmem S32x64 .f32) (f : v.ty.Contents (Elt F)) (L : List (View.Piece (Elt F) S32x64 .f32))
    (size : Fin S32x64.rank → ℕ) (ht : View.Piece.tiledL L size = true) : v.read (Elt F) (v.writes (Elt F) f L) = View.canon L :=
  View.read_writes_eq_canon v f L (View.cover_of_tiledL L size ht)

theorem outA_2 (h0 : t.val = 0) : View.canon (runA V c t h0).1 = (accA V c t h0).1 := by
  unfold accA runA kernelRun0_A; dsimp only
  exact canon_whole_readCov _ _ zero_off2 _
theorem outA_3 (h0 : t.val = 0) : View.canon (runA V c t h0).2.1 = (accA V c t h0).2 := by
  unfold accA runA kernelRun0_A; dsimp only
  exact canon_whole_readCov _ _ zero_off2 _
theorem outB_2 (h0 : ¬t.val = 0) (a : Vec F S32x64 .f32 × Vec F S32x64 .f32) : View.canon (runB V c t h0 a.1 a.2).1 = (accB V c t h0 a).1 := by
  unfold accB runB kernelRun0_B; dsimp only
  exact canon_whole_readCov _ _ zero_off2 _
theorem outB_3 (h0 : ¬t.val = 0) (a : Vec F S32x64 .f32 × Vec F S32x64 .f32) : View.canon (runB V c t h0 a.1 a.2).2.1 = (accB V c t h0 a).2 := by
  unfold accB runB kernelRun0_B; dsimp only
  exact canon_whole_readCov _ _ zero_off2 _

end Runs

def acc0 (c : Dev nD) : (n : ℕ) → n < cfg0.N → Vec F S32x64 .f32 × Vec F S32x64 .f32
  | 0, hn => accA V c ⟨0, hn⟩ rfl
  | n + 1, hn => accB V c ⟨n + 1, hn⟩ (Nat.succ_ne_zero n) (acc0 c n (Nat.lt_of_succ_lt hn))

theorem acc0_A (c : Dev nD) (t : Fin cfg0.N) (h0 : t.val = 0) : acc0 V c t.val t.isLt = accA V c t h0 := by
  obtain ⟨n, hn⟩ := t
  cases n with
  | zero => exact rfl
  | succ n => exact absurd h0 (Nat.succ_ne_zero n)

theorem acc0_B (c : Dev nD) (t : Fin cfg0.N) (h0 : ¬t.val = 0) :
    acc0 V c t.val t.isLt = accB V c t h0 (acc0 V c (t.val - 1) (Nat.lt_of_le_of_lt (Nat.sub_le _ _) t.isLt)) := by
  obtain ⟨n, hn⟩ := t
  cases n with
  | zero => exact absurd rfl h0
  | succ n => exact rfl

def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ restScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ restScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ restScoped0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases h0 : t.val = 0
  · rw [acc0_A V c t h0, PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩⟩
    iapply ((runA V c t h0).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact read_tiled _ _ _ S32x64.size (by sl_kernel_rfl)
        isplitl [HS1]
        · unfold owns; iexists _; isplitr
          swap; · iexact HS1
          ipureintro; exact read_tiled _ _ _ S32x64.size (by sl_kernel_rfl)
        iexact HR
      iexact Hg
    isplitl [Ho]; · iexact Ho
    isplitl [H0]; · iexact H0
    isplitl [H1]; · iexact H1
    isplitl [H2]
    · unfold owns; iexists _; isplitr
      swap; · iexact H2
      ipureintro; exact (read_tiled _ _ _ S32x64.size (by sl_kernel_rfl)).trans (outA_2 V c t h0)
    unfold owns; iexists _; isplitr
    swap; · iexact H3
    ipureintro; exact (read_tiled _ _ _ S32x64.size (by sl_kernel_rfl)).trans (outA_3 V c t h0)
  · rw [acc0_B V c t h0, PhiS_castSucc V c t, PhiS_pos V c _ _ h0]
    iintro ⟨⟨⟨HS0, HS1, HR⟩, Hg⟩, Ho, ⟨%d0, H0⟩, ⟨%d1, H1⟩, ⟨%d2, H2⟩, ⟨%d3, H3⟩⟩
    iapply ((runB V c t h0 _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact read_tiled _ _ _ ![1, 64] (by sl_kernel_rfl)
        isplitl [HS1]
        · unfold owns; iexists _; isplitr
          swap; · iexact HS1
          ipureintro; exact read_tiled _ _ _ ![1, 64] (by sl_kernel_rfl)
        iexact HR
      iexact Hg
    isplitl [Ho]; · iexact Ho
    isplitl [H0]; · iexact H0
    isplitl [H1]; · iexact H1
    isplitl [H2]
    · unfold owns; iexists _; isplitr
      swap; · iexact H2
      ipureintro; exact (read_tiled _ _ _ S32x64.size (by sl_kernel_rfl)).trans (outB_2 V c t h0 _)
    unfold owns; iexists _; isplitr
    swap; · iexact H3
    ipureintro; exact (read_tiled _ _ _ S32x64.size (by sl_kernel_rfl)).trans (outB_3 V c t h0 _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 256 := N_0; omega)

end Cert.KernelIdeal.StatsRegion

end
-- ==== Proof.NormRegion.lean ====
import proofs.«413776_j39324720562872_4_alg».proof.Proof.Gen.KernelIdeal.Launch
import proofs.«413776_j39324720562872_4_alg».proof.Proof.Gen.KernelIdeal.Skeleton
import proofs.«413776_j39324720562872_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NormRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in

noncomputable def kernelRun1 (c : Dev nD) (i : grid1.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (arg7 : Memref sig .tc .vmem S256x16 .f32) (harg7 : arg7.IsWhole) (arg8 : Memref sig .tc .vmem S256x2064 .f32) (harg8 : arg8.IsWhole)
    (x1 : Vec F S256x32 .i32) (x2 : Vec F S32x1001x64 .f32) (x3 x4 x5 x6 : Vec F S32x64 .f32) (x7 : Vec F S256x16 .f32) :
    { L8 : List (View.Piece (Elt F) S256x2064 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ (∃ d, owns (c : Thread nD τ) arg8 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ owns (c : Thread nD τ) arg7 fullShare x7
                ∗ (∃ f, arg8.view.loc (c : Thread nD τ) ↦[arg8.view.set]{fullShare} arg8.view.writes (Elt F) f L8)) -∗ K ⟨⟩))
          ⊢ wp frame (wpE (defs₀ (F := F)) Variants.none c none) E (cc1__gather_bn_kernel i arg1 harg1 arg2 harg2 arg3 harg3 arg4 harg4 arg5 harg5 arg6 harg6 arg7 harg7 arg8 harg8) K } := by
  refine ⟨?_, fun E K => ?run⟩
  case run =>
    simp only [cc1__gather_bn_kernel_eq_skeleton]; unfold cc1__gather_bn_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)
abbrev hs1_7 (t : Fin cfg1.N) : (st1_7 t).IsWhole := hstage1_7 ((cfg1.slots t 7).cast nbuf1_7)

def run1 (c : Dev nD) (t : Fin cfg1.N) :=
  kernelRun1 c (grid1.coords t) (st1_0 t) (hs1_0 t) (st1_1 t) (hs1_1 t) (st1_2 t) (hs1_2 t) (st1_3 t) (hs1_3 t) (st1_4 t) (hs1_4 t) (st1_5 t) (hs1_5 t) (st1_6 t) (hs1_6 t) (st1_7 t) (hs1_7 t) (iblk1 V c 0 t) (iblk1 V c 1 t) (iblk1 V c 2 t) (iblk1 V c 3 t) (iblk1 V c 4 t) (iblk1 V c 5 t) (iblk1 V c 6 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => View.canon (run1 V c t).1
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = View.canon (run1 V c t).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_eq_canon _ _ _ (View.cover_of_tiledBy _ ![256, 16] (by sl_kernel_rfl))

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) :=
  Idealize.SL.BI.Entails.refl _

end Regions

end Cert.KernelIdeal.NormRegion

end
-- ==== Proof.Run.lean ====
import proofs.«413776_j39324720562872_4_alg».proof.Proof.Gen.KernelIdeal.Launch
import proofs.«413776_j39324720562872_4_alg».proof.Proof.Gen.KernelIdeal.Skeleton
import proofs.«413776_j39324720562872_4_alg».proof.Proof.Gen.KernelIdeal.Points
import proofs.«413776_j39324720562872_4_alg».proof.Proof.Gen.KernelIdeal.Regions
import proofs.«413776_j39324720562872_4_alg».proof.Proof.StatsRegion
import proofs.«413776_j39324720562872_4_alg».proof.Proof.NormRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (StatsRegion.dat0 (V0 m ρ) c).arrAt w cfg0.N
theorem W1_arr (c : Dev nD) (w : Fin cfg0.W) :
    W1 m ρ c (Proc.devRef .tc (Pipeline.arrRef spec0 w)) = (StatsRegion.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem hF0 (c : Dev nD) (w : Fin cfg0.W) : (StatsRegion.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (NormRegion.dat1 (V2 m ρ) c).arrAt w cfg1.N
theorem W3_arr (c : Dev nD) (w : Fin cfg1.W) :
    W3 m ρ c (Proc.devRef .tc (Pipeline.arrRef spec1 w)) = (NormRegion.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (NormRegion.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W2_of (c : Dev nD) (r : Ref sig .tc) (h : r ∉ hostOps1_W) : W2 m ρ c (Proc.devRef .tc r) = W1 m ρ c (Proc.devRef .tc r) :=
  StableHlo.after_of_writes_sub hostOps1 _ hostOps1_writes h

theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((StatsRegion.dat0 (V0 m ρ) c).arrAt_in w hin _).trans (StatsRegion.A_eq0 (V0 m ρ) c w))

theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((NormRegion.dat1 (V2 m ρ) c).arrAt_in w hin _).trans (NormRegion.A_eq1 (V2 m ρ) c w))

theorem V2_main_arg0 (c : Dev nD) : V2 m ρ c main_arg0 = m ((c : Thread nD τ).loc main_arg0) :=
  (W2_of m ρ c main_arg0 (by decide)).trans ((W1_in m ρ c 0 rfl).trans rfl)
theorem V2_main_arg1 (c : Dev nD) : V2 m ρ c main_arg1 = m ((c : Thread nD τ).loc main_arg1) :=
  (W2_of m ρ c main_arg1 (by decide)).trans ((W1_of_ne m ρ c main_arg1 (by decide)).trans rfl)
theorem V2_main_arg2 (c : Dev nD) : V2 m ρ c main_arg2 = m ((c : Thread nD τ).loc main_arg2) :=
  (W2_of m ρ c main_arg2 (by decide)).trans ((W1_in m ρ c 1 rfl).trans rfl)
theorem V2_main_arg3 (c : Dev nD) : V2 m ρ c main_arg3 = m ((c : Thread nD τ).loc main_arg3) :=
  (W2_of m ρ c main_arg3 (by decide)).trans ((W1_of_ne m ρ c main_arg3 (by decide)).trans rfl)
theorem V2_main_arg4 (c : Dev nD) : V2 m ρ c main_arg4 = m ((c : Thread nD τ).loc main_arg4) :=
  (W2_of m ρ c main_arg4 (by decide)).trans ((W1_of_ne m ρ c main_arg4 (by decide)).trans rfl)

theorem W3_main_arg0 (c : Dev nD) : W3 m ρ c (Proc.devRef .tc main_arg0) = m ((c : Thread nD τ).loc main_arg0) :=
  (W3_in m ρ c 0 rfl).trans (V2_main_arg0 m ρ c)
theorem W3_main_arg1 (c : Dev nD) : W3 m ρ c (Proc.devRef .tc main_arg1) = m ((c : Thread nD τ).loc main_arg1) :=
  (W3_in m ρ c 6 rfl).trans (V2_main_arg1 m ρ c)
theorem W3_main_arg2 (c : Dev nD) : W3 m ρ c (Proc.devRef .tc main_arg2) = m ((c : Thread nD τ).loc main_arg2) :=
  (W3_in m ρ c 1 rfl).trans (V2_main_arg2 m ρ c)
theorem W3_main_arg3 (c : Dev nD) : W3 m ρ c (Proc.devRef .tc main_arg3) = m ((c : Thread nD τ).loc main_arg3) :=
  (W3_in m ρ c 4 rfl).trans (V2_main_arg3 m ρ c)
theorem W3_main_arg4 (c : Dev nD) : W3 m ρ c (Proc.devRef .tc main_arg4) = m ((c : Thread nD τ).loc main_arg4) :=
  (W3_in m ρ c 5 rfl).trans (V2_main_arg4 m ρ c)

def pdats : (p : Fin 2) → (c : Dev nD) → Dat τ (Elt F) Unit ℕ (UR sig nD τ) ℕ (Pipeline.pin (pcfgs (F := F)) adm p) c
  | ⟨0, _⟩ => fun c => StatsRegion.dat0 (V0 m ρ) c
  | ⟨1, _⟩ => fun c => NormRegion.dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (StatsRegion.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (StatsRegion.A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (StatsRegion.hin0 (V0 m ρ) c)
    unfold Pipeline.ΦA
    iintro ⟨Hp, -, Hr⟩
    isplitl [Hr]; · iexact Hr
    iexact Hp
  hout c := by
    rw [Pipeline.ownSems0_none]
    refine BIBase.Entails.trans (StatsRegion.hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (NormRegion.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (NormRegion.A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (NormRegion.hin1 (V2 m ρ) c)
    unfold Pipeline.ΦA
    iintro ⟨Hp, -, Hr⟩
    isplitl [Hr]; · iexact Hr
    iexact Hp
  hout c := by
    rw [Pipeline.ownSems0_none]
    refine BIBase.Entails.trans (NormRegion.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]

theorem main_run (c : Dev nD) : main (F := F) c = Pipeline.Seg.run (segs m ρ) := (main_chain c).trans (by chain_rfl)

set_option backward.isDefEq.respectTransparency.types false in

theorem main_post : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (main_post m ρ)

theorem result : θ_run defs (onTc (τ := τ) (main (F := F))) ⟨m, fun _ => 0, ρ⟩ (fun r => ∀ c : Dev nD,
      r.2.mem ((c.tc : Thread nD τ).loc main_v12) = (NormRegion.dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v12 (by decide))).trans (W3_arr m ρ c 7),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (main_post m ρ)

end Cert.KernelIdeal.Run

end
-- ==== Proof.Spec.lean ====
import Idealize.ShloMosaic.PureOps.Ideal
import Idealize.ShloMosaic.Lib.ValueIdx

noncomputable section

namespace Cert.EmbNorm

open Idealize.ShloMosaic Idealize.ShloMosaic.ValueIdx

abbrev SIdx : Shape := ⟨2, ![65536, 32]⟩
abbrev SNum : Shape := ⟨2, ![65536, 16]⟩
abbrev STab : Shape := ⟨3, ![32, 1001, 64]⟩
abbrev SChan : Shape := ⟨2, ![32, 64]⟩
abbrev SOut : Shape := ⟨2, ![65536, 2064]⟩

def rowOf (w : BitVec 32) : Fin 1001 := ⟨min w.toInt.toNat 1000, by omega⟩

def InRange (idx : IVec SIdx 32) : Prop :=
  ∀ (b : Fin 65536) (f : Fin 32), 0 ≤ (idx (ix2 b f)).toInt ∧ (idx (ix2 b f)).toInt < 1001

def FiniteTab (tbl : STab.Idx → EReal) : Prop := ∀ i, ∃ r : ℝ, tbl i = (r : EReal)

def emb (tbl : STab.Idx → EReal) (idx : IVec SIdx 32) (b : Fin 65536) (f : Fin 32) (d : Fin 64) : EReal :=
  tbl (ix3 f (rowOf (idx (ix2 b f))) d)

def batch : EReal := Ideal.ofBits .f32 0x47800000#32

def eps : EReal := Ideal.ofBits .f32 0x3727C5AC#32

def zero : EReal := Ideal.ofBits .f32 0x00000000#32

def total (tbl : STab.Idx → EReal) (idx : IVec SIdx 32) (f : Fin 32) (d : Fin 64) : EReal :=
  ∑ b : Fin 65536, emb tbl idx b f d

def totalSq (tbl : STab.Idx → EReal) (idx : IVec SIdx 32) (f : Fin 32) (d : Fin 64) : EReal :=
  ∑ b : Fin 65536, emb tbl idx b f d * emb tbl idx b f d

def mean (tbl : STab.Idx → EReal) (idx : IVec SIdx 32) (f : Fin 32) (d : Fin 64) : EReal :=
  Ideal.div (total tbl idx f d) batch

def var (tbl : STab.Idx → EReal) (idx : IVec SIdx 32) (f : Fin 32) (d : Fin 64) : EReal :=
  max (Ideal.div (totalSq tbl idx f d) batch - mean tbl idx f d * mean tbl idx f d) zero

def scale (tbl : STab.Idx → EReal) (idx : IVec SIdx 32) (f : Fin 32) (d : Fin 64) : EReal :=
  Ideal.rsqrt (var tbl idx f d + eps)

def normed (tbl : STab.Idx → EReal) (idx : IVec SIdx 32) (gamma beta : SChan.Idx → EReal)
    (b : Fin 65536) (f : Fin 32) (d : Fin 64) : EReal :=
  max ((emb tbl idx b f d - mean tbl idx f d) * scale tbl idx f d * gamma (ix2 f d) + beta (ix2 f d)) zero

def normedWith (tbl : STab.Idx → EReal) (idx : IVec SIdx 32) (mu sc gamma beta : SChan.Idx → EReal)
    (b : Fin 65536) (f : Fin 32) (d : Fin 64) : EReal :=
  max ((emb tbl idx b f d - mu (ix2 f d)) * sc (ix2 f d) * gamma (ix2 f d) + beta (ix2 f d)) zero

def outWith (idx : IVec SIdx 32) (num : SNum.Idx → EReal) (tbl : STab.Idx → EReal) (mu sc gamma beta : SChan.Idx → EReal) :
    SOut.Idx → EReal := fun i =>
  if h : (i 1).val < 2048 then
    normedWith tbl idx mu sc gamma beta (i 0) ⟨(i 1).val / 64, by omega⟩ ⟨(i 1).val % 64, Nat.mod_lt _ (by decide)⟩
  else num (ix2 (i 0) ⟨(i 1).val - 2048, by have := idx2_lt1 i; omega⟩)

def out (idx : IVec SIdx 32) (num : SNum.Idx → EReal) (tbl : STab.Idx → EReal) (gamma beta : SChan.Idx → EReal) :
    SOut.Idx → EReal := fun i =>
  if h : (i 1).val < 2048 then
    normed tbl idx gamma beta (i 0) ⟨(i 1).val / 64, by omega⟩ ⟨(i 1).val % 64, Nat.mod_lt _ (by decide)⟩
  else num (ix2 (i 0) ⟨(i 1).val - 2048, by have := idx2_lt1 i; omega⟩)

theorem out_eq_outWith (idx : IVec SIdx 32) (num : SNum.Idx → EReal) (tbl : STab.Idx → EReal) (gamma beta : SChan.Idx → EReal) :
    out idx num tbl gamma beta
      = outWith idx num tbl (fun j => mean tbl idx (j 0) (j 1)) (fun j => scale tbl idx (j 0) (j 1)) gamma beta := rfl

end Cert.EmbNorm

end
-- ==== Proof.OneHotRows.lean ====
import proofs.«413776_j39324720562872_4_alg».proof.KernelIdeal
import proofs.«413776_j39324720562872_4_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Rows

open Idealize.ShloMosaic Idealize.SL.Sem Idealize.ShloMosaic.ValueIdx
open Cert.KernelIdeal

variable {F : FTy → Type} [FloatOps F] [Facts]
open Facts₀ Facts

def selRows (c : ℕ) (hs : S256x32.Slices ![0, c] S256x1) (x : Vec F S256x32 .i32) (tb : FVec F S1001x64 .f32) :
    FVec F S256x64 .f32 :=
  matmul dot_S256x1001_S1001x64_S256x64_1_0_0_1_n_n (some .fp32)
    (sitofp .f32 (extui 32 (cmpi .eq
      (broadcastTo S256x1001 (shapeCast S256x1 (minsi (broadcast S256 1000#32) (maxsi (broadcast S256 0#32)
        (shapeCast S256 (extractStridedSlice S256x1 ![0, c] x hs) shapeCasts_S256x1_S256))) shapeCasts_S256_S256x1)
        broadcasts_S256x1_S256x1001)
      (iota .tc S256x1001 32 [1] iota_S256x1001_d1_w32)) natLt_1_32))
    tb (constant S256x64 .f32 0x00000000#32)

theorem clamp_word (w : BitVec 32) :
    IntOp.minsi 1000#32 (IntOp.maxsi 0#32 w) = BitVec.ofNat 32 (Cert.EmbNorm.rowOf w).val := by
  apply BitVec.eq_of_toNat_eq
  have hw := BitVec.toInt_eq_toNat_cond w
  have hlt := w.isLt
  have h0 : (0#32 : BitVec 32).toInt = 0 := by decide
  have h1 : (1000#32 : BitVec 32).toInt = 1000 := by decide
  have n0 : (0#32 : BitVec 32).toNat = 0 := by decide
  have n1 : (1000#32 : BitVec 32).toNat = 1000 := by decide
  unfold IntOp.minsi IntOp.maxsi Cert.EmbNorm.rowOf
  simp only [BitVec.slt, BitVec.toNat_ofNat, h0, decide_eq_true_eq]
  by_cases hneg : w.toInt < 0
  · rw [if_pos hneg, h0, if_neg (by omega), n0]
    omega
  · rw [if_neg hneg]
    by_cases hbig : 1000 < w.toInt
    · rw [h1, if_pos hbig, n1]; omega
    · rw [h1, if_neg hbig]; omega

abbrev D := dot_S256x1001_S1001x64_S256x64_1_0_0_1_n_n

theorem contr_rank : D.contr.rank = 1 := rfl
theorem contr_size : D.contr.size ⟨0, by rw [contr_rank]; exact Nat.one_pos⟩ = 1001 := rfl

theorem lhs_0 (j : S256x64.Idx) (k : D.contr.Idx) : (D.lhsIdx j k 0 : ℕ) = j 0 := by
  simp [DotDims.lhsIdx, D, dot_S256x1001_S1001x64_S256x64_1_0_0_1_n_n]; rfl
theorem lhs_1 (j : S256x64.Idx) (k : D.contr.Idx) :
    (D.lhsIdx j k 1 : ℕ) = k ⟨0, by rw [contr_rank]; exact Nat.one_pos⟩ := by
  simp [DotDims.lhsIdx, D, dot_S256x1001_S1001x64_S256x64_1_0_0_1_n_n]; rfl
theorem rhs_0 (j : S256x64.Idx) (k : D.contr.Idx) :
    (D.rhsIdx j k 0 : ℕ) = k ⟨0, by rw [contr_rank]; exact Nat.one_pos⟩ := by
  simp [DotDims.rhsIdx, D, dot_S256x1001_S1001x64_S256x64_1_0_0_1_n_n]; rfl
theorem rhs_1 (j : S256x64.Idx) (k : D.contr.Idx) : (D.rhsIdx j k 1 : ℕ) = j 1 := by
  simp [DotDims.rhsIdx, D, dot_S256x1001_S1001x64_S256x64_1_0_0_1_n_n]; rfl

theorem matmul_zero_apply (A : FVec Ideal S256x1001 .f32) (tb : FVec Ideal S1001x64 .f32) (r : Fin 256) (d : Fin 64) :
    matmul D (some .fp32) A tb (constant (F := Ideal) S256x64 .f32 0x00000000#32) (ix2 r d)
      = ∑ k : Fin 1001, A (ix2 r k) * tb (ix2 k d) := by
  show FloatOps.matmul D (some .fp32) A tb (constant (F := Ideal) S256x64 .f32 0x00000000#32) (ix2 r d) = _
  rw [Ideal.matmul_constant_zero_apply, ← Equiv.sum_comp (contrEquiv1 D 1001 contr_rank contr_size).symm]
  refine Finset.sum_congr rfl fun k _ => ?_
  have hk := contrEquiv1_symm_val D 1001 contr_rank contr_size k
  have hl : D.lhsIdx (ix2 r d) ((contrEquiv1 D 1001 contr_rank contr_size).symm k) = ix2 r k :=
    Shape.idx_ext₂ (lhs_0 _ _) ((lhs_1 _ _).trans hk)
  have hr : D.rhsIdx (ix2 r d) ((contrEquiv1 D 1001 contr_rank contr_size).symm k) = ix2 k d :=
    Shape.idx_ext₂ ((rhs_0 _ _).trans hk) (rhs_1 _ _)
  rw [hl, hr]

section Column
variable {α : Type}

theorem shapeCast_col_vec_apply (v : S256x1.Idx → α) (h : S256x1.ShapeCasts S256) (r : Fin 256) :
    shapeCast S256 v h (ix1 r) = v (ix2 r (0 : Fin 1)) :=
  shapeCast_apply v h _ _ (by
    rw [Shape.rowMajor_val_two, Shape.rowMajor_val_one]
    show r.val * 1 + 0 = r.val
    omega)

theorem shapeCast_vec_col_apply (v : S256.Idx → α) (h : S256.ShapeCasts S256x1) (r : Fin 256) (u : Fin 1) :
    shapeCast S256x1 v h (ix2 r u) = v (ix1 r) :=
  shapeCast_apply v h _ _ (by
    have hu : u.val = 0 := by omega
    rw [Shape.rowMajor_val_two, Shape.rowMajor_val_one]
    show r.val = r.val * 1 + u.val
    omega)

theorem broadcastTo_col_apply (v : S256x1.Idx → α) (h : S256x1.Broadcasts S256x1001) (r : Fin 256) (k : Fin 1001) :
    broadcastTo S256x1001 v h (ix2 r k) = v (ix2 r (0 : Fin 1)) := by
  refine broadcastTo_apply v h (ix2 r k) (ix2 r (0 : Fin 1)) fun ax => ?_
  match ax with
  | ⟨0, _⟩ => rfl
  | ⟨1, _⟩ => rfl

end Column

theorem clampedCol_apply (c : Fin 32) (hs : S256x32.Slices ![0, c.val] S256x1) (x : IVec S256x32 32) (r : Fin 256) (k : Fin 1001) :
    broadcastTo S256x1001 (shapeCast S256x1 (minsi (broadcast S256 1000#32) (maxsi (broadcast S256 0#32)
        (shapeCast S256 (extractStridedSlice S256x1 ![0, c.val] x hs) shapeCasts_S256x1_S256))) shapeCasts_S256_S256x1)
        broadcasts_S256x1_S256x1001 (ix2 r k)
      = BitVec.ofNat 32 (Cert.EmbNorm.rowOf (x (ix2 r c))).val := by
  rw [broadcastTo_col_apply, shapeCast_vec_col_apply]
  show IntOp.minsi 1000#32 (IntOp.maxsi 0#32
    (shapeCast S256 (extractStridedSlice S256x1 ![0, c.val] x hs) shapeCasts_S256x1_S256 (ix1 r))) = _
  rw [shapeCast_col_vec_apply, slice2_axis1_apply c.val x hs r (0 : Fin 1) c (by simp), clamp_word]

theorem oneHot_entry (a k : Fin 1001) :
    FloatOps.sitofp (F := Ideal) .f32 ((IntOp.cmpi .eq (BitVec.ofNat 32 a.val) (BitVec.ofNat 32 k.val)).setWidth 32)
      = if k = a then (1 : EReal) else 0 := by
  show ((((IntOp.cmpi .eq (BitVec.ofNat 32 a.val) (BitVec.ofNat 32 k.val)).setWidth 32).toInt : ℝ) : EReal) = _
  by_cases h : k = a
  · subst h
    rw [if_pos rfl]
    have e1 : IntOp.cmpi .eq (BitVec.ofNat 32 k.val) (BitVec.ofNat 32 k.val) = 1#1 := by simp [IntOp.cmpi]
    have e2 : ((1#1 : BitVec 1).setWidth 32).toInt = 1 := by decide
    rw [e1, e2]; simp
  · rw [if_neg h]
    have hne : (BitVec.ofNat 32 a.val == BitVec.ofNat 32 k.val) = false := by
      rw [beq_eq_false_iff_ne]
      intro he
      have hn := congrArg BitVec.toNat he
      simp only [BitVec.toNat_ofNat] at hn
      have := a.isLt; have := k.isLt
      exact h (Fin.ext (by omega))
    have e1 : IntOp.cmpi .eq (BitVec.ofNat 32 a.val) (BitVec.ofNat 32 k.val) = 0#1 := by
      unfold IntOp.cmpi
      simp [hne]
    have e2 : ((0#1 : BitVec 1).setWidth 32).toInt = 0 := by decide
    rw [e1, e2]; simp

theorem selRows_apply (c : Fin 32) (hs : S256x32.Slices ![0, c.val] S256x1) (x : Vec Ideal S256x32 .i32)
    (tb : FVec Ideal S1001x64 .f32) (r : Fin 256) (d : Fin 64) :
    selRows (F := Ideal) c.val hs x tb (ix2 r d) = tb (ix2 (Cert.EmbNorm.rowOf (x (ix2 r c))) d) := by
  unfold selRows
  refine (matmul_zero_apply _ tb r d).trans ?_
  have hent : ∀ k : Fin 1001,
      (sitofp (F := Ideal) .f32 (extui 32 (cmpi .eq
        (broadcastTo S256x1001 (shapeCast S256x1 (minsi (broadcast S256 1000#32) (maxsi (broadcast S256 0#32)
          (shapeCast S256 (extractStridedSlice S256x1 ![0, c.val] x hs) shapeCasts_S256x1_S256))) shapeCasts_S256_S256x1)
          broadcasts_S256x1_S256x1001)
        (iota .tc S256x1001 32 [1] iota_S256x1001_d1_w32)) natLt_1_32)) (ix2 r k)
        = if k = Cert.EmbNorm.rowOf (x (ix2 r c)) then (1 : EReal) else 0 := by
    intro k
    show FloatOps.sitofp (F := Ideal) .f32 ((IntOp.cmpi .eq
      (broadcastTo S256x1001 (shapeCast S256x1 (minsi (broadcast S256 1000#32) (maxsi (broadcast S256 0#32)
          (shapeCast S256 (extractStridedSlice S256x1 ![0, c.val] x hs) shapeCasts_S256x1_S256))) shapeCasts_S256_S256x1)
          broadcasts_S256x1_S256x1001 (ix2 r k))
      (iota .tc S256x1001 32 [1] iota_S256x1001_d1_w32 (ix2 r k))).setWidth 32) = _
    rw [clampedCol_apply c hs x r k, iota_single_apply]
    exact oneHot_entry _ k
  rw [Finset.sum_eq_single (Cert.EmbNorm.rowOf (x (ix2 r c)))]
  · rw [hent, if_pos rfl, one_mul]
  · intro k _ hk
    rw [hent, if_neg hk, zero_mul]
  · intro h; exact absurd (Finset.mem_univ _) h

theorem colSum_apply (v : FVec Ideal S256x64 .f32) (d : Fin 64) :
    multiReduction (F := Ideal) .add [0] S64 v 0x00000000#32 reduces_S256x64_S64 (.inl rfl) rfl (ix1 d)
      = ∑ r : Fin 256, v (ix2 r d) := by
  refine (Ideal.multiReduction_add_single v 0x00000000#32 reduces_S256x64_S64 (.inl rfl) rfl (ix1 d)).trans ?_
  show ∑ r : Fin 256, v (reduces_S256x64_S64.lift (ix1 d) r) = _
  refine Finset.sum_congr rfl fun r _ => congrArg v ?_
  exact Shape.idx_ext₂ rfl rfl

section Layout
variable {α : Type}

theorem table_apply (t : S1x1001x64.Idx → α) (k : Fin 1001) (d : Fin 64) :
    shapeCast S1001x64 t shapeCasts_S1x1001x64_S1001x64 (ix2 k d) = t (ix3 (0 : Fin 1) k d) :=
  shapeCast_1ab_ab_apply t _ k d

theorem rowVec_apply (u : S1x64.Idx → α) (d : Fin 64) :
    shapeCast S64 u shapeCasts_S1x64_S64 (ix1 d) = u (ix2 (0 : Fin 1) d) :=
  shapeCast_1a_a_apply u _ d

theorem vecRow_apply (u : S64.Idx → α) (z : Fin 1) (d : Fin 64) :
    shapeCast S1x64 u shapeCasts_S64_S1x64 (ix2 z d) = u (ix1 d) :=
  shapeCast_a_1a_apply u _ z d

theorem rowBroadcast_apply (u : S1x64.Idx → α) (r : Fin 256) (d : Fin 64) :
    broadcastTo S256x64 u broadcasts_S1x64_S256x64 (ix2 r d) = u (ix2 (0 : Fin 1) d) :=
  broadcastTo_1b_ab_apply u _ r d

theorem concat_left_apply (x₁ x₂ : S256x64.Idx → α) (r : Fin 256) (j : Fin 128) (hj : j.val < 64) :
    concatenate S256x128 1 [⟨S256x64, x₁⟩, ⟨S256x64, x₂⟩] concatenates_S256x64_S256x64_S256x128_d1 (ix2 r j)
      = x₁ (ix2 r (⟨j.val, hj⟩ : Fin 64)) :=
  concatenate_pair_apply_left 1 x₁ x₂ _ (ix2 r j) rfl (ix2 r (⟨j.val, hj⟩ : Fin 64))
    (fun b => match b with | ⟨0, _⟩ => rfl | ⟨1, _⟩ => rfl)

theorem concat_right_apply (x₁ x₂ : S256x64.Idx → α) (r : Fin 256) (j : Fin 128) (hj : 64 ≤ j.val) :
    concatenate S256x128 1 [⟨S256x64, x₁⟩, ⟨S256x64, x₂⟩] concatenates_S256x64_S256x64_S256x128_d1 (ix2 r j)
      = x₂ (ix2 r (⟨j.val - 64, by have := j.isLt; omega⟩ : Fin 64)) :=
  concatenate_pair_apply_right 1 x₁ x₂ _ (ix2 r j) rfl rfl (ix2 r (⟨j.val - 64, by have := j.isLt; omega⟩ : Fin 64))
    (fun b hb => match b, hb with
      | ⟨0, _⟩, _ => rfl
      | ⟨1, _⟩, hb => absurd rfl hb)
    (show j.val - 64 + 64 = j.val by omega)

end Layout

end Cert.KernelIdeal.Rows

end
-- ==== Proof.StatsRows.lean ====
import proofs.«413776_j39324720562872_4_alg».proof.Proof.Gen.KernelIdeal.Skeleton
import proofs.«413776_j39324720562872_4_alg».proof.Proof.OneHotRows
import proofs.«413776_j39324720562872_4_alg».proof.Proof.Spec
import Idealize.ShloMosaic.Lib.ValueIdx
import Idealize.ShloMosaic.Lib.ValueLayout
import Idealize.ShloMosaic.PureOps.Ideal.Laws
import Mathlib.Algebra.BigOperators.Fin

noncomputable section

namespace Cert.KernelIdeal.StatsRows

open Idealize.ShloMosaic Idealize.SL.Sem Idealize.ShloMosaic.ValueIdx
open Cert.KernelIdeal

variable [Facts]
open Facts₀ Facts

def rowAdd {F : FTy → Type} [FloatOps F] (e : FVec F S256x64 .f32) (u : Vec F S1x64 .f32) : FVec F S1x64 .f32 :=
  shapeCast S1x64 (addf (shapeCast S64 u shapeCasts_S1x64_S64)
    (multiReduction .add [0] S64 e 0x00000000#32 reduces_S256x64_S64 (.inl rfl) rfl)) shapeCasts_S64_S1x64

def rowSq {F : FTy → Type} [FloatOps F] (e : FVec F S256x64 .f32) (u : Vec F S1x64 .f32) : FVec F S1x64 .f32 :=
  shapeCast S1x64 (addf (shapeCast S64 u shapeCasts_S1x64_S64)
    (multiReduction .add [0] S64 (mulf e e) 0x00000000#32 reduces_S256x64_S64 (.inl rfl) rfl)) shapeCasts_S64_S1x64

abbrev sel {F : FTy → Type} [FloatOps F] (c : ℕ) (hs : S256x32.Slices ![0, c] S256x1) (x0 : Vec F S256x32 .i32)
    (tl : Vec F S1x1001x64 .f32) : FVec F S256x64 .f32 :=
  Rows.selRows c hs x0 (shapeCast S1001x64 tl shapeCasts_S1x1001x64_S1001x64)

theorem rowAdd_apply (e : FVec Ideal S256x64 .f32) (u : Vec Ideal S1x64 .f32) (z : Fin 1) (d : Fin 64) :
    rowAdd e u (ix2 z d) = u (ix2 0 d) + ∑ r : Fin 256, e (ix2 r d) := by
  unfold rowAdd
  rw [shapeCast_a_1a_apply, addf_apply, shapeCast_1a_a_apply, Rows.colSum_apply]

theorem rowSq_apply (e : FVec Ideal S256x64 .f32) (u : Vec Ideal S1x64 .f32) (z : Fin 1) (d : Fin 64) :
    rowSq e u (ix2 z d) = u (ix2 0 d) + ∑ r : Fin 256, e (ix2 r d) * e (ix2 r d) := by
  unfold rowSq
  rw [shapeCast_a_1a_apply, addf_apply, shapeCast_1a_a_apply, Rows.colSum_apply]
  rfl

theorem sel_apply (c : Fin 32) (hs : S256x32.Slices ![0, c.val] S256x1) (x0 : Vec Ideal S256x32 .i32)
    (tl : Vec Ideal S1x1001x64 .f32) (r : Fin 256) (d : Fin 64) :
    sel (F := Ideal) c.val hs x0 tl (ix2 r d) = tl (ix3 (0 : Fin 1) (Cert.EmbNorm.rowOf (x0 (ix2 r c))) d) := by
  show Rows.selRows (F := Ideal) c.val hs x0 _ (ix2 r d) = _
  rw [Rows.selRows_apply, Rows.table_apply]

theorem rowAdd_sel_apply (c : Fin 32) (hs : S256x32.Slices ![0, c.val] S256x1) (x0 : Vec Ideal S256x32 .i32)
    (tl : Vec Ideal S1x1001x64 .f32) (u : Vec Ideal S1x64 .f32) (z : Fin 1) (d : Fin 64) :
    rowAdd (sel (F := Ideal) c.val hs x0 tl) u (ix2 z d)
      = u (ix2 0 d) + ∑ r : Fin 256, tl (ix3 (0 : Fin 1) (Cert.EmbNorm.rowOf (x0 (ix2 r c))) d) := by
  rw [rowAdd_apply]
  exact congrArg _ (Finset.sum_congr rfl fun r _ => sel_apply c hs x0 tl r d)

theorem rowSq_sel_apply (c : Fin 32) (hs : S256x32.Slices ![0, c.val] S256x1) (x0 : Vec Ideal S256x32 .i32)
    (tl : Vec Ideal S1x1001x64 .f32) (u : Vec Ideal S1x64 .f32) (z : Fin 1) (d : Fin 64) :
    rowSq (sel (F := Ideal) c.val hs x0 tl) u (ix2 z d)
      = u (ix2 0 d) + ∑ r : Fin 256, tl (ix3 (0 : Fin 1) (Cert.EmbNorm.rowOf (x0 (ix2 r c))) d)
          * tl (ix3 (0 : Fin 1) (Cert.EmbNorm.rowOf (x0 (ix2 r c))) d) := by
  rw [rowSq_apply]
  exact congrArg _ (Finset.sum_congr rfl fun r _ => by rw [sel_apply c hs x0 tl r d])

theorem sum_batch {M : Type*} [AddCommMonoid M] (g : Fin 65536 → M) :
    ∑ b : Fin 65536, g b = ∑ t : Fin 256, ∑ r : Fin 256, g ⟨256 * t.val + r.val, by omega⟩ := by
  rw [← Fintype.sum_prod_type']
  refine (Equiv.sum_comp (finProdFinEquiv (m := 256) (n := 256) : Fin 256 × Fin 256 ≃ Fin 65536) g).symm.trans ?_
  refine Finset.sum_congr rfl fun x _ => congrArg g (Fin.ext ?_)
  show x.2.val + 256 * x.1.val = 256 * x.1.val + x.2.val
  omega

end Cert.KernelIdeal.StatsRows

end
-- ==== Proof.StatsRowsTable.lean ====
import proofs.«413776_j39324720562872_4_alg».proof.Proof.StatsRows

noncomputable section

namespace Cert.KernelIdeal.StatsRows

open Idealize.ShloMosaic Idealize.SL.Sem Idealize.ShloMosaic.ValueIdx
open Cert.KernelIdeal
open Facts₀ Facts

variable {F : FTy → Type} [FloatOps F] (x0 : Vec F S256x32 .i32) (tl : Vec F S1x1001x64 .f32) (u : Vec F S1x64 .f32)

theorem sum_row_0 : Gen.k0_pay4 x0 tl u = rowAdd (sel 0 slices_S256x32_o0_0_S256x1 x0 tl) u := rfl
theorem sq_row_0 : Gen.k0_pay5 x0 tl u = rowSq (sel 0 slices_S256x32_o0_0_S256x1 x0 tl) u := rfl
theorem sum_row_1 : Gen.k0_pay7 x0 tl u = rowAdd (sel 1 slices_S256x32_o0_1_S256x1 x0 tl) u := rfl
theorem sq_row_1 : Gen.k0_pay8 x0 tl u = rowSq (sel 1 slices_S256x32_o0_1_S256x1 x0 tl) u := rfl
theorem sum_row_2 : Gen.k0_pay12 (Gen.k0_pay9 tl) (Gen.k0_pay10 x0) (iota .tc S256x1001 32 [1] iota_S256x1001_d1_w32) u = rowAdd (sel 2 slices_S256x32_o0_2_S256x1 x0 tl) u := rfl
theorem sq_row_2 : Gen.k0_pay13 (Gen.k0_pay9 tl) (Gen.k0_pay10 x0) (iota .tc S256x1001 32 [1] iota_S256x1001_d1_w32) u = rowSq (sel 2 slices_S256x32_o0_2_S256x1 x0 tl) u := rfl
theorem sum_row_3 : Gen.k0_pay16 (Gen.k0_pay14 x0 tl) (Gen.k0_pay15 u) = rowAdd (sel 3 slices_S256x32_o0_3_S256x1 x0 tl) u := rfl
theorem sq_row_3 : Gen.k0_pay17 (Gen.k0_pay14 x0 tl) u = rowSq (sel 3 slices_S256x32_o0_3_S256x1 x0 tl) u := rfl
theorem sum_row_4 : Gen.k0_pay19 x0 tl u = rowAdd (sel 4 slices_S256x32_o0_4_S256x1 x0 tl) u := rfl
theorem sq_row_4 : Gen.k0_pay21 (Gen.k0_pay18 x0 tl) (Gen.k0_pay20 u) = rowSq (sel 4 slices_S256x32_o0_4_S256x1 x0 tl) u := rfl
theorem sum_row_5 : Gen.k0_pay23 x0 tl u = rowAdd (sel 5 slices_S256x32_o0_5_S256x1 x0 tl) u := rfl
theorem sq_row_5 : Gen.k0_pay24 x0 tl u = rowSq (sel 5 slices_S256x32_o0_5_S256x1 x0 tl) u := rfl
theorem sum_row_6 : Gen.k0_pay26 x0 tl u = rowAdd (sel 6 slices_S256x32_o0_6_S256x1 x0 tl) u := rfl
theorem sq_row_6 : Gen.k0_pay27 x0 tl u = rowSq (sel 6 slices_S256x32_o0_6_S256x1 x0 tl) u := rfl
theorem sum_row_7 : Gen.k0_pay31 (Gen.k0_pay28 tl) (Gen.k0_pay29 x0) (iota .tc S256x1001 32 [1] iota_S256x1001_d1_w32) u = rowAdd (sel 7 slices_S256x32_o0_7_S256x1 x0 tl) u := rfl
theorem sq_row_7 : Gen.k0_pay32 (Gen.k0_pay28 tl) (Gen.k0_pay29 x0) (iota .tc S256x1001 32 [1] iota_S256x1001_d1_w32) u = rowSq (sel 7 slices_S256x32_o0_7_S256x1 x0 tl) u := rfl
theorem sum_row_8 : Gen.k0_pay35 (Gen.k0_pay33 x0 tl) (Gen.k0_pay34 u) = rowAdd (sel 8 slices_S256x32_o0_8_S256x1 x0 tl) u := rfl
theorem sq_row_8 : Gen.k0_pay36 (Gen.k0_pay33 x0 tl) u = rowSq (sel 8 slices_S256x32_o0_8_S256x1 x0 tl) u := rfl
theorem sum_row_9 : Gen.k0_pay38 x0 tl u = rowAdd (sel 9 slices_S256x32_o0_9_S256x1 x0 tl) u := rfl
theorem sq_row_9 : Gen.k0_pay40 (Gen.k0_pay37 x0 tl) (Gen.k0_pay39 u) = rowSq (sel 9 slices_S256x32_o0_9_S256x1 x0 tl) u := rfl
theorem sum_row_10 : Gen.k0_pay42 x0 tl u = rowAdd (sel 10 slices_S256x32_o0_10_S256x1 x0 tl) u := rfl
theorem sq_row_10 : Gen.k0_pay43 x0 tl u = rowSq (sel 10 slices_S256x32_o0_10_S256x1 x0 tl) u := rfl
theorem sum_row_11 : Gen.k0_pay45 x0 tl u = rowAdd (sel 11 slices_S256x32_o0_11_S256x1 x0 tl) u := rfl
theorem sq_row_11 : Gen.k0_pay46 x0 tl u = rowSq (sel 11 slices_S256x32_o0_11_S256x1 x0 tl) u := rfl
theorem sum_row_12 : Gen.k0_pay50 (Gen.k0_pay47 tl) (Gen.k0_pay48 x0) (iota .tc S256x1001 32 [1] iota_S256x1001_d1_w32) u = rowAdd (sel 12 slices_S256x32_o0_12_S256x1 x0 tl) u := rfl
theorem sq_row_12 : Gen.k0_pay51 (Gen.k0_pay47 tl) (Gen.k0_pay48 x0) (iota .tc S256x1001 32 [1] iota_S256x1001_d1_w32) u = rowSq (sel 12 slices_S256x32_o0_12_S256x1 x0 tl) u := rfl
theorem sum_row_13 : Gen.k0_pay54 (Gen.k0_pay52 x0 tl) (Gen.k0_pay53 u) = rowAdd (sel 13 slices_S256x32_o0_13_S256x1 x0 tl) u := rfl
theorem sq_row_13 : Gen.k0_pay55 (Gen.k0_pay52 x0 tl) u = rowSq (sel 13 slices_S256x32_o0_13_S256x1 x0 tl) u := rfl
theorem sum_row_14 : Gen.k0_pay57 x0 tl u = rowAdd (sel 14 slices_S256x32_o0_14_S256x1 x0 tl) u := rfl
theorem sq_row_14 : Gen.k0_pay59 (Gen.k0_pay56 x0 tl) (Gen.k0_pay58 u) = rowSq (sel 14 slices_S256x32_o0_14_S256x1 x0 tl) u := rfl
theorem sum_row_15 : Gen.k0_pay61 x0 tl u = rowAdd (sel 15 slices_S256x32_o0_15_S256x1 x0 tl) u := rfl
theorem sq_row_15 : Gen.k0_pay62 x0 tl u = rowSq (sel 15 slices_S256x32_o0_15_S256x1 x0 tl) u := rfl
theorem sum_row_16 : Gen.k0_pay64 x0 tl u = rowAdd (sel 16 slices_S256x32_o0_16_S256x1 x0 tl) u := rfl
theorem sq_row_16 : Gen.k0_pay65 x0 tl u = rowSq (sel 16 slices_S256x32_o0_16_S256x1 x0 tl) u := rfl
theorem sum_row_17 : Gen.k0_pay69 (Gen.k0_pay66 tl) (Gen.k0_pay67 x0) (iota .tc S256x1001 32 [1] iota_S256x1001_d1_w32) u = rowAdd (sel 17 slices_S256x32_o0_17_S256x1 x0 tl) u := rfl
theorem sq_row_17 : Gen.k0_pay70 (Gen.k0_pay66 tl) (Gen.k0_pay67 x0) (iota .tc S256x1001 32 [1] iota_S256x1001_d1_w32) u = rowSq (sel 17 slices_S256x32_o0_17_S256x1 x0 tl) u := rfl
theorem sum_row_18 : Gen.k0_pay73 (Gen.k0_pay71 x0 tl) (Gen.k0_pay72 u) = rowAdd (sel 18 slices_S256x32_o0_18_S256x1 x0 tl) u := rfl
theorem sq_row_18 : Gen.k0_pay74 (Gen.k0_pay71 x0 tl) u = rowSq (sel 18 slices_S256x32_o0_18_S256x1 x0 tl) u := rfl
theorem sum_row_19 : Gen.k0_pay76 x0 tl u = rowAdd (sel 19 slices_S256x32_o0_19_S256x1 x0 tl) u := rfl
theorem sq_row_19 : Gen.k0_pay78 (Gen.k0_pay75 x0 tl) (Gen.k0_pay77 u) = rowSq (sel 19 slices_S256x32_o0_19_S256x1 x0 tl) u := rfl
theorem sum_row_20 : Gen.k0_pay80 x0 tl u = rowAdd (sel 20 slices_S256x32_o0_20_S256x1 x0 tl) u := rfl
theorem sq_row_20 : Gen.k0_pay81 x0 tl u = rowSq (sel 20 slices_S256x32_o0_20_S256x1 x0 tl) u := rfl
theorem sum_row_21 : Gen.k0_pay83 x0 tl u = rowAdd (sel 21 slices_S256x32_o0_21_S256x1 x0 tl) u := rfl
theorem sq_row_21 : Gen.k0_pay84 x0 tl u = rowSq (sel 21 slices_S256x32_o0_21_S256x1 x0 tl) u := rfl
theorem sum_row_22 : Gen.k0_pay88 (Gen.k0_pay85 tl) (Gen.k0_pay86 x0) (iota .tc S256x1001 32 [1] iota_S256x1001_d1_w32) u = rowAdd (sel 22 slices_S256x32_o0_22_S256x1 x0 tl) u := rfl
theorem sq_row_22 : Gen.k0_pay89 (Gen.k0_pay85 tl) (Gen.k0_pay86 x0) (iota .tc S256x1001 32 [1] iota_S256x1001_d1_w32) u = rowSq (sel 22 slices_S256x32_o0_22_S256x1 x0 tl) u := rfl
theorem sum_row_23 : Gen.k0_pay92 (Gen.k0_pay90 x0 tl) (Gen.k0_pay91 u) = rowAdd (sel 23 slices_S256x32_o0_23_S256x1 x0 tl) u := rfl
theorem sq_row_23 : Gen.k0_pay93 (Gen.k0_pay90 x0 tl) u = rowSq (sel 23 slices_S256x32_o0_23_S256x1 x0 tl) u := rfl
theorem sum_row_24 : Gen.k0_pay95 x0 tl u = rowAdd (sel 24 slices_S256x32_o0_24_S256x1 x0 tl) u := rfl
theorem sq_row_24 : Gen.k0_pay97 (Gen.k0_pay94 x0 tl) (Gen.k0_pay96 u) = rowSq (sel 24 slices_S256x32_o0_24_S256x1 x0 tl) u := rfl
theorem sum_row_25 : Gen.k0_pay99 x0 tl u = rowAdd (sel 25 slices_S256x32_o0_25_S256x1 x0 tl) u := rfl
theorem sq_row_25 : Gen.k0_pay100 x0 tl u = rowSq (sel 25 slices_S256x32_o0_25_S256x1 x0 tl) u := rfl
theorem sum_row_26 : Gen.k0_pay102 x0 tl u = rowAdd (sel 26 slices_S256x32_o0_26_S256x1 x0 tl) u := rfl
theorem sq_row_26 : Gen.k0_pay103 x0 tl u = rowSq (sel 26 slices_S256x32_o0_26_S256x1 x0 tl) u := rfl
theorem sum_row_27 : Gen.k0_pay107 (Gen.k0_pay104 tl) (Gen.k0_pay105 x0) (iota .tc S256x1001 32 [1] iota_S256x1001_d1_w32) u = rowAdd (sel 27 slices_S256x32_o0_27_S256x1 x0 tl) u := rfl
theorem sq_row_27 : Gen.k0_pay108 (Gen.k0_pay104 tl) (Gen.k0_pay105 x0) (iota .tc S256x1001 32 [1] iota_S256x1001_d1_w32) u = rowSq (sel 27 slices_S256x32_o0_27_S256x1 x0 tl) u := rfl
theorem sum_row_28 : Gen.k0_pay111 (Gen.k0_pay109 x0 tl) (Gen.k0_pay110 u) = rowAdd (sel 28 slices_S256x32_o0_28_S256x1 x0 tl) u := rfl
theorem sq_row_28 : Gen.k0_pay112 (Gen.k0_pay109 x0 tl) u = rowSq (sel 28 slices_S256x32_o0_28_S256x1 x0 tl) u := rfl
theorem sum_row_29 : Gen.k0_pay114 x0 tl u = rowAdd (sel 29 slices_S256x32_o0_29_S256x1 x0 tl) u := rfl
theorem sq_row_29 : Gen.k0_pay116 (Gen.k0_pay113 x0 tl) (Gen.k0_pay115 u) = rowSq (sel 29 slices_S256x32_o0_29_S256x1 x0 tl) u := rfl
theorem sum_row_30 : Gen.k0_pay118 x0 tl u = rowAdd (sel 30 slices_S256x32_o0_30_S256x1 x0 tl) u := rfl
theorem sq_row_30 : Gen.k0_pay119 x0 tl u = rowSq (sel 30 slices_S256x32_o0_30_S256x1 x0 tl) u := rfl
theorem sum_row_31 : Gen.k0_pay121 x0 tl u = rowAdd (sel 31 slices_S256x32_o0_31_S256x1 x0 tl) u := rfl
theorem sq_row_31 : Gen.k0_pay122 x0 tl u = rowSq (sel 31 slices_S256x32_o0_31_S256x1 x0 tl) u := rfl

end Cert.KernelIdeal.StatsRows

end
-- ==== Proof.StatsBlock.lean ====
import proofs.«413776_j39324720562872_4_alg».proof.KernelIdeal
import proofs.«413776_j39324720562872_4_alg».proof.Proof.Spec
import Idealize.ShloMosaic.Lib.ValueIdx

noncomputable section

namespace Cert.KernelIdeal.StatsBlock

open Idealize.ShloMosaic Idealize.SL.Sem Idealize.ShloMosaic.ValueIdx
open Cert.KernelIdeal

def blockSum (x0 : Vec Ideal S256x32 .i32) (x1 : Vec Ideal S32x1001x64 .f32) (f : Fin 32) (d : Fin 64) : EReal :=
  ∑ r : Fin 256, x1 (ix3 f (Cert.EmbNorm.rowOf (x0 (ix2 r f))) d)

def blockSq (x0 : Vec Ideal S256x32 .i32) (x1 : Vec Ideal S32x1001x64 .f32) (f : Fin 32) (d : Fin 64) : EReal :=
  ∑ r : Fin 256, x1 (ix3 f (Cert.EmbNorm.rowOf (x0 (ix2 r f))) d) * x1 (ix3 f (Cert.EmbNorm.rowOf (x0 (ix2 r f))) d)

end Cert.KernelIdeal.StatsBlock

end
-- ==== Proof.StatsPieces.lean ====
import proofs.«413776_j39324720562872_4_alg».proof.Proof.StatsRegion
import proofs.«413776_j39324720562872_4_alg».proof.Proof.StatsRowsTable
import proofs.«413776_j39324720562872_4_alg».proof.Proof.StatsBlock
import Idealize.ShloMosaic.Lib.Pipeline.Value
import Idealize.ShloMosaic.Lib.Pipeline.FrameBody
import Idealize.ShloMosaic.Lib.Tactic

set_option maxRecDepth 16384

noncomputable section

namespace Cert.KernelIdeal.StatsPieces

open Idealize.ShloMosaic Idealize.ShloMosaic.TcCoe Idealize.ShloMosaic.Tactic
open Idealize.SL Idealize.SL.Sem Idealize.ShloMosaic.ValueIdx
open Cert.KernelIdeal Cert.KernelIdeal.StatsRegion Cert.KernelIdeal.StatsRows Cert.KernelIdeal.StatsBlock
open Facts₀ Facts

section Row

variable {k : ℕ} {inb : ∀ a, (![k, 0] : Fin 2 → ℕ) a + S1x64.size a ≤ S32x64.size a}

-- Row k's rectangle places its entry (z, d) at (k, d).
theorem emb_row (hk : k < 32) (z : Fin 1) (d : Fin 64) :
    (Rect.unit (s := S32x64) ![k, 0] S1x64.size inb).emb (ix2 z d) = ix2 (⟨k, hk⟩ : Fin 32) d := by
  refine Shape.idx_ext₂ ?_ ?_
  · show k + 1 * z.val = k
    omega
  · show 0 + 1 * d.val = d.val
    omega

theorem canon_row_ne (w : S1x64.Idx → EReal) (L : List (View.Piece (Elt Ideal) S32x64 .f32)) (f : Fin 32) (d : Fin 64) (h : f.val ≠ k) :
    View.canon ((⟨Rect.unit (s := S32x64) ![k, 0] S1x64.size inb, w⟩ : View.Piece (Elt Ideal) S32x64 .f32) :: L) (ix2 f d)
      = View.canon L (ix2 f d) := by
  refine View.canon_cons_of_not_mem _ L ?_
  rw [Rect.mem_set_unit]
  intro hm
  have h0 := hm 0
  change k ≤ f.val ∧ f.val < k + 1 at h0
  omega

theorem canon_row_eq (w : S1x64.Idx → EReal) (L : List (View.Piece (Elt Ideal) S32x64 .f32)) (hk : k < 32) (d : Fin 64) :
    View.canon ((⟨Rect.unit (s := S32x64) ![k, 0] S1x64.size inb, w⟩ : View.Piece (Elt Ideal) S32x64 .f32) :: L) (ix2 ⟨k, hk⟩ d)
      = w (ix2 0 d) := by
  rw [← emb_row (inb := inb) hk 0 d]
  exact View.canon_cons_emb (Rect.unit (s := S32x64) ![k, 0] S1x64.size inb) w L _

end Row

theorem ld_table (f : ℕ) (hf : f < 32)
    (inb : ∀ a, (![f, 0, 0] : Fin 3 → ℕ) a + S1x1001x64.size a ≤ S32x1001x64.size a)
    (X : S32x1001x64.Idx → EReal) (z : Fin 1) (k : Fin 1001) (d : Fin 64) :
    View.ld (Val := Elt Ideal) (e' := .f32) X (Rect.unit (s := S32x1001x64) ![f, 0, 0] S1x1001x64.size inb) (ix3 z k d)
      = X (ix3 (⟨f, hf⟩ : Fin 32) k d) := by
  refine congrArg X (funext fun a => Fin.ext ?_)
  match a with
  | ⟨0, _⟩ => show f + 1 * z.val = f; omega
  | ⟨1, _⟩ => show 0 + 1 * k.val = k.val; omega
  | ⟨2, _⟩ => show 0 + 1 * d.val = d.val; omega

theorem ld_idx (inb : ∀ a, (![0, 0] : Fin 2 → ℕ) a + S256x32.size a ≤ S256x32.size a) (X : Vec Ideal S256x32 .i32) :
    View.ld (Val := Elt Ideal) (e' := .i32) X (Rect.unit (s := S256x32) ![0, 0] S256x32.size inb) = X :=
  View.ld_unit_zero (funext fun a => by fin_cases a <;> rfl) inb X

-- A row update adds, at channel d of row k, the point's share to the loaded row's entry.
def Adds (op : FVec Ideal S256x64 .f32 → Vec Ideal S1x64 .f32 → FVec Ideal S1x64 .f32)
    (sh : Vec Ideal S256x32 .i32 → Vec Ideal S32x1001x64 .f32 → Fin 32 → Fin 64 → EReal) : Prop :=
  ∀ (k : ℕ) (hk : k < 32) (hs : S256x32.Slices ![0, k] S256x1)
    (inb0 : ∀ a, (![0, 0] : Fin 2 → ℕ) a + S256x32.size a ≤ S256x32.size a)
    (inb3 : ∀ a, (![k, 0, 0] : Fin 3 → ℕ) a + S1x1001x64.size a ≤ S32x1001x64.size a)
    (x0 : Vec Ideal S256x32 .i32) (x1 : Vec Ideal S32x1001x64 .f32) (u : Vec Ideal S1x64 .f32) (z : Fin 1) (d : Fin 64),
    op (sel k hs (View.ld (Val := Elt Ideal) (e' := .i32) x0 (Rect.unit (s := S256x32) ![0, 0] S256x32.size inb0))
        (View.ld (Val := Elt Ideal) (e' := .f32) x1 (Rect.unit (s := S32x1001x64) ![k, 0, 0] S1x1001x64.size inb3))) u (ix2 z d)
      = u (ix2 0 d) + sh x0 x1 ⟨k, hk⟩ d

theorem adds_sum : Adds rowAdd blockSum := fun k hk hs inb0 inb3 x0 x1 u z d => by
  rw [ld_idx]
  refine (rowAdd_sel_apply ⟨k, hk⟩ hs x0 _ u z d).trans ?_
  unfold blockSum
  exact congrArg _ (Finset.sum_congr rfl fun r _ => ld_table k hk inb3 x1 0 _ d)

theorem adds_sq : Adds rowSq blockSq := fun k hk hs inb0 inb3 x0 x1 u z d => by
  rw [ld_idx]
  refine (rowSq_sel_apply ⟨k, hk⟩ hs x0 _ u z d).trans ?_
  unfold blockSq
  exact congrArg _ (Finset.sum_congr rfl fun r _ => by rw [ld_table k hk inb3 x1 0 _ d])

section Step

variable {op : FVec Ideal S256x64 .f32 → Vec Ideal S1x64 .f32 → FVec Ideal S1x64 .f32}
  {sh : Vec Ideal S256x32 .i32 → Vec Ideal S32x1001x64 .f32 → Fin 32 → Fin 64 → EReal} (H : Adds op sh)
  {k : ℕ} {hs : S256x32.Slices ![0, k] S256x1}
  {inb0 : ∀ a, (![0, 0] : Fin 2 → ℕ) a + S256x32.size a ≤ S256x32.size a}
  {inb3 : ∀ a, (![k, 0, 0] : Fin 3 → ℕ) a + S1x1001x64.size a ≤ S32x1001x64.size a}
  {inb : ∀ a, (![k, 0] : Fin 2 → ℕ) a + S1x64.size a ≤ S32x64.size a}
  {arg1 : Memref sig .tc .vmem S256x32 .i32} {harg1 : arg1.IsWhole} {arg2 : Memref sig .tc .vmem S32x1001x64 .f32} {harg2 : arg2.IsWhole}
  {x0 : Vec Ideal S256x32 .i32} {x1 : Vec Ideal S32x1001x64 .f32} {pay : S1x64.Idx → EReal}

include H

-- A stored row over loads of the buffers holding x0 and x1 and any loaded row u.
theorem pay_apply (hk : k < 32) {u : Vec Ideal S1x64 .f32}
    (hpay : pay = op (sel k hs
        (View.readAt (Elt Ideal) arg1.view (Rect.unit (s := S256x32) ![0, 0] S256x32.size inb0).toLoadRect (harg1.unread x0))
        (View.readAt (Elt Ideal) arg2.view (Rect.unit (s := S32x1001x64) ![k, 0, 0] S1x1001x64.size inb3).toLoadRect (harg2.unread x1))) u)
    (z : Fin 1) (d : Fin 64) : pay (ix2 z d) = u (ix2 0 d) + sh x0 x1 ⟨k, hk⟩ d := by
  subst hpay
  rw [View.readAt_eq_ld, View.readAt_eq_ld, harg1.read_unread, harg2.read_unread]
  exact H k hk hs inb0 inb3 x0 x1 u z d

-- The loaded row is the buffer's own: the stored piece is what was there plus the share.
theorem piece_later {arg5 : Memref sig .tc .vmem S32x64 .f32} {harg5 : arg5.IsWhole} {xs : Vec Ideal S32x64 .f32}
    (hpay : pay = op (sel k hs
        (View.readAt (Elt Ideal) arg1.view (Rect.unit (s := S256x32) ![0, 0] S256x32.size inb0).toLoadRect (harg1.unread x0))
        (View.readAt (Elt Ideal) arg2.view (Rect.unit (s := S32x1001x64) ![k, 0, 0] S1x1001x64.size inb3).toLoadRect (harg2.unread x1)))
        (View.readAt (Elt Ideal) arg5.view (Rect.unit (s := S32x64) ![k, 0] S1x64.size inb).toLoadRect (harg5.unread xs)))
    (x : S1x64.Idx) (hk : k < 32 := by decide) :
    pay x = (fun y => xs y + sh x0 x1 (y 0) (y 1)) ((Rect.unit (s := S32x64) ![k, 0] S1x64.size inb).emb x) := by
  obtain ⟨z, d, rfl⟩ : ∃ z d, x = ix2 z d := ⟨x 0, x 1, eq_ix2 x⟩
  rw [pay_apply H hk hpay, emb_row hk, View.readAt_eq_ld, harg5.read_unread]
  exact congrArg (fun t => xs t + sh x0 x1 ⟨k, hk⟩ d) (emb_row (inb := inb) hk 0 d)

-- The first k rows hold the point's shares, the others zero.
def Rows (s : Fin 32 → Fin 64 → EReal) (k : ℕ) (L : List (View.Piece (Elt Ideal) S32x64 .f32)) : Prop :=
  ∀ (f : Fin 32) (d : Fin 64), View.canon L (ix2 f d) = if f.val < k then s f d else 0

-- Row k, loaded back as zero, is stored as the share alone; the other rows keep what they had.
theorem rows_step {v : View sig .tc .vmem S32x64 .f32} {L : List (View.Piece (Elt Ideal) S32x64 .f32)}
    (hpay : pay = op (sel k hs
        (View.readAt (Elt Ideal) arg1.view (Rect.unit (s := S256x32) ![0, 0] S256x32.size inb0).toLoadRect (harg1.unread x0))
        (View.readAt (Elt Ideal) arg2.view (Rect.unit (s := S32x1001x64) ![k, 0, 0] S1x1001x64.size inb3).toLoadRect (harg2.unread x1)))
        (v.readCov L (Rect.unit (s := S32x64) ![k, 0] S1x64.size inb).toLoadRect))
    (hL : Rows (sh x0 x1) k L) (hk : k < 32 := by decide) :
    Rows (sh x0 x1) (k + 1) ((⟨Rect.unit (s := S32x64) ![k, 0] S1x64.size inb, pay⟩ : View.Piece (Elt Ideal) S32x64 .f32) :: L) := by
  intro f d
  by_cases hf : f.val = k
  · obtain rfl : f = ⟨k, hk⟩ := Fin.ext hf
    rw [canon_row_eq, if_pos (Nat.lt_succ_self k), pay_apply H hk hpay, View.readCov_eq_canon']
    show View.canon L ((Rect.unit (s := S32x64) ![k, 0] S1x64.size inb).emb (ix2 0 d)) + _ = _
    rw [emb_row hk, hL, if_neg (Nat.lt_irrefl k), zero_add]
  · rw [canon_row_ne _ _ f d hf, hL]
    exact if_congr (by omega) rfl rfl

end Step

theorem rows_zero {s : Fin 32 → Fin 64 → EReal} {inb : ∀ a, (![0, 0] : Fin 2 → ℕ) a + S32x64.size a ≤ S32x64.size a}
    {w : S32x64.Idx → EReal} (hw : ∀ y, w y = 0) :
    Rows s 0 [(⟨Rect.unit (s := S32x64) ![0, 0] S32x64.size inb, w⟩ : View.Piece (Elt Ideal) S32x64 .f32)] := fun f d => by
  rw [View.canon_unit_zero zero_off2, hw, if_neg (Nat.not_lt_zero _)]

theorem rows_all {s : Fin 32 → Fin 64 → EReal} {L : List (View.Piece (Elt Ideal) S32x64 .f32)} (h : Rows s 32 L) :
    View.canon L = fun y => s (y 0) (y 1) := by
  funext y
  obtain ⟨f, d, rfl⟩ : ∃ (f : Fin 32) (d : Fin 64), y = ix2 f d := ⟨y 0, y 1, eq_ix2 y⟩
  exact (h f d).trans (if_pos f.isLt)

-- Row pieces that tile the buffer and are each a block of G leave G.
theorem later_all {G : S32x64.Idx → EReal} {L : List (View.Piece (Elt Ideal) S32x64 .f32)}
    (ht : View.Piece.tiledL L S1x64.size = true) (h : ∀ p ∈ L, ∀ x : p.1.shape.Idx, p.2 x = G (p.1.emb x)) : View.canon L = G :=
  funext fun y => View.canon_apply_of_pieces G L h y (View.cover_of_tiledL L S1x64.size ht y)

theorem zero_fill1 (y : S32x64.Idx) : Gen.k0_pay1 (F := Ideal) y = 0 := by
  unfold Gen.k0_pay1
  exact Ideal.ofBits_zero_f32

theorem zero_fill2 (y : S32x64.Idx) : Gen.k0_pay2 (F := Ideal) y = 0 := by
  unfold Gen.k0_pay2
  exact Ideal.ofBits_zero_f32

variable (V : (c : Dev nD) → (b : Ref sig .tc) → Buf (Elt Ideal) ((c : Thread nD τ).loc b)) (c : Dev nD) (t : Fin cfg0.N)

-- The first point leaves, over the zero fill, its own share of each channel's total,
theorem accA_fst (h0 : t.val = 0) :
    (accA V c t h0).1 = fun y => blockSum (iblk0 V c 0 t) (iblk0 V c 1 t) (y 0) (y 1) := by
  show View.canon (runA V c t h0).2.2.1 = _
  refine rows_all (s := blockSum _ _) ?_
  unfold runA kernelRun0_A
  dsimp only
  refine rows_step adds_sum (sum_row_31 _ _ _) ?_
  refine rows_step adds_sum (sum_row_30 _ _ _) ?_
  refine rows_step adds_sum (sum_row_29 _ _ _) ?_
  refine rows_step adds_sum (sum_row_28 _ _ _) ?_
  refine rows_step adds_sum (sum_row_27 _ _ _) ?_
  refine rows_step adds_sum (sum_row_26 _ _ _) ?_
  refine rows_step adds_sum (sum_row_25 _ _ _) ?_
  refine rows_step adds_sum (sum_row_24 _ _ _) ?_
  refine rows_step adds_sum (sum_row_23 _ _ _) ?_
  refine rows_step adds_sum (sum_row_22 _ _ _) ?_
  refine rows_step adds_sum (sum_row_21 _ _ _) ?_
  refine rows_step adds_sum (sum_row_20 _ _ _) ?_
  refine rows_step adds_sum (sum_row_19 _ _ _) ?_
  refine rows_step adds_sum (sum_row_18 _ _ _) ?_
  refine rows_step adds_sum (sum_row_17 _ _ _) ?_
  refine rows_step adds_sum (sum_row_16 _ _ _) ?_
  refine rows_step adds_sum (sum_row_15 _ _ _) ?_
  refine rows_step adds_sum (sum_row_14 _ _ _) ?_
  refine rows_step adds_sum (sum_row_13 _ _ _) ?_
  refine rows_step adds_sum (sum_row_12 _ _ _) ?_
  refine rows_step adds_sum (sum_row_11 _ _ _) ?_
  refine rows_step adds_sum (sum_row_10 _ _ _) ?_
  refine rows_step adds_sum (sum_row_9 _ _ _) ?_
  refine rows_step adds_sum (sum_row_8 _ _ _) ?_
  refine rows_step adds_sum (sum_row_7 _ _ _) ?_
  refine rows_step adds_sum (sum_row_6 _ _ _) ?_
  refine rows_step adds_sum (sum_row_5 _ _ _) ?_
  refine rows_step adds_sum (sum_row_4 _ _ _) ?_
  refine rows_step adds_sum (sum_row_3 _ _ _) ?_
  refine rows_step adds_sum (sum_row_2 _ _ _) ?_
  refine rows_step adds_sum (sum_row_1 _ _ _) ?_
  refine rows_step adds_sum (sum_row_0 _ _ _) ?_
  exact rows_zero zero_fill1

-- and of its total of squares.
theorem accA_snd (h0 : t.val = 0) :
    (accA V c t h0).2 = fun y => blockSq (iblk0 V c 0 t) (iblk0 V c 1 t) (y 0) (y 1) := by
  show View.canon (runA V c t h0).2.2.2.1 = _
  refine rows_all (s := blockSq _ _) ?_
  unfold runA kernelRun0_A
  dsimp only
  refine rows_step adds_sq (sq_row_31 _ _ _) ?_
  refine rows_step adds_sq (sq_row_30 _ _ _) ?_
  refine rows_step adds_sq (sq_row_29 _ _ _) ?_
  refine rows_step adds_sq (sq_row_28 _ _ _) ?_
  refine rows_step adds_sq (sq_row_27 _ _ _) ?_
  refine rows_step adds_sq (sq_row_26 _ _ _) ?_
  refine rows_step adds_sq (sq_row_25 _ _ _) ?_
  refine rows_step adds_sq (sq_row_24 _ _ _) ?_
  refine rows_step adds_sq (sq_row_23 _ _ _) ?_
  refine rows_step adds_sq (sq_row_22 _ _ _) ?_
  refine rows_step adds_sq (sq_row_21 _ _ _) ?_
  refine rows_step adds_sq (sq_row_20 _ _ _) ?_
  refine rows_step adds_sq (sq_row_19 _ _ _) ?_
  refine rows_step adds_sq (sq_row_18 _ _ _) ?_
  refine rows_step adds_sq (sq_row_17 _ _ _) ?_
  refine rows_step adds_sq (sq_row_16 _ _ _) ?_
  refine rows_step adds_sq (sq_row_15 _ _ _) ?_
  refine rows_step adds_sq (sq_row_14 _ _ _) ?_
  refine rows_step adds_sq (sq_row_13 _ _ _) ?_
  refine rows_step adds_sq (sq_row_12 _ _ _) ?_
  refine rows_step adds_sq (sq_row_11 _ _ _) ?_
  refine rows_step adds_sq (sq_row_10 _ _ _) ?_
  refine rows_step adds_sq (sq_row_9 _ _ _) ?_
  refine rows_step adds_sq (sq_row_8 _ _ _) ?_
  refine rows_step adds_sq (sq_row_7 _ _ _) ?_
  refine rows_step adds_sq (sq_row_6 _ _ _) ?_
  refine rows_step adds_sq (sq_row_5 _ _ _) ?_
  refine rows_step adds_sq (sq_row_4 _ _ _) ?_
  refine rows_step adds_sq (sq_row_3 _ _ _) ?_
  refine rows_step adds_sq (sq_row_2 _ _ _) ?_
  refine rows_step adds_sq (sq_row_1 _ _ _) ?_
  refine rows_step adds_sq (sq_row_0 _ _ _) ?_
  exact rows_zero zero_fill2

-- A later point adds its shares to what the point before left.
theorem accB_fst (h0 : ¬t.val = 0) (a : Vec Ideal S32x64 .f32 × Vec Ideal S32x64 .f32) :
    (accB V c t h0 a).1 = fun y => a.1 y + blockSum (iblk0 V c 0 t) (iblk0 V c 1 t) (y 0) (y 1) := by
  show View.canon (runB V c t h0 a.1 a.2).2.2.1 = _
  refine later_all (by sl_kernel_rfl) ?_
  unfold runB kernelRun0_B
  dsimp only
  sl_unfold_words
  intro p hp x
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_later adds_sum (sum_row_31 _ _ _) x
  · exact piece_later adds_sum (sum_row_30 _ _ _) x
  · exact piece_later adds_sum (sum_row_29 _ _ _) x
  · exact piece_later adds_sum (sum_row_28 _ _ _) x
  · exact piece_later adds_sum (sum_row_27 _ _ _) x
  · exact piece_later adds_sum (sum_row_26 _ _ _) x
  · exact piece_later adds_sum (sum_row_25 _ _ _) x
  · exact piece_later adds_sum (sum_row_24 _ _ _) x
  · exact piece_later adds_sum (sum_row_23 _ _ _) x
  · exact piece_later adds_sum (sum_row_22 _ _ _) x
  · exact piece_later adds_sum (sum_row_21 _ _ _) x
  · exact piece_later adds_sum (sum_row_20 _ _ _) x
  · exact piece_later adds_sum (sum_row_19 _ _ _) x
  · exact piece_later adds_sum (sum_row_18 _ _ _) x
  · exact piece_later adds_sum (sum_row_17 _ _ _) x
  · exact piece_later adds_sum (sum_row_16 _ _ _) x
  · exact piece_later adds_sum (sum_row_15 _ _ _) x
  · exact piece_later adds_sum (sum_row_14 _ _ _) x
  · exact piece_later adds_sum (sum_row_13 _ _ _) x
  · exact piece_later adds_sum (sum_row_12 _ _ _) x
  · exact piece_later adds_sum (sum_row_11 _ _ _) x
  · exact piece_later adds_sum (sum_row_10 _ _ _) x
  · exact piece_later adds_sum (sum_row_9 _ _ _) x
  · exact piece_later adds_sum (sum_row_8 _ _ _) x
  · exact piece_later adds_sum (sum_row_7 _ _ _) x
  · exact piece_later adds_sum (sum_row_6 _ _ _) x
  · exact piece_later adds_sum (sum_row_5 _ _ _) x
  · exact piece_later adds_sum (sum_row_4 _ _ _) x
  · exact piece_later adds_sum (sum_row_3 _ _ _) x
  · exact piece_later adds_sum (sum_row_2 _ _ _) x
  · exact piece_later adds_sum (sum_row_1 _ _ _) x
  · exact piece_later adds_sum (sum_row_0 _ _ _) x

theorem accB_snd (h0 : ¬t.val = 0) (a : Vec Ideal S32x64 .f32 × Vec Ideal S32x64 .f32) :
    (accB V c t h0 a).2 = fun y => a.2 y + blockSq (iblk0 V c 0 t) (iblk0 V c 1 t) (y 0) (y 1) := by
  show View.canon (runB V c t h0 a.1 a.2).2.2.2.1 = _
  refine later_all (by sl_kernel_rfl) ?_
  unfold runB kernelRun0_B
  dsimp only
  sl_unfold_words
  intro p hp x
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_later adds_sq (sq_row_31 _ _ _) x
  · exact piece_later adds_sq (sq_row_30 _ _ _) x
  · exact piece_later adds_sq (sq_row_29 _ _ _) x
  · exact piece_later adds_sq (sq_row_28 _ _ _) x
  · exact piece_later adds_sq (sq_row_27 _ _ _) x
  · exact piece_later adds_sq (sq_row_26 _ _ _) x
  · exact piece_later adds_sq (sq_row_25 _ _ _) x
  · exact piece_later adds_sq (sq_row_24 _ _ _) x
  · exact piece_later adds_sq (sq_row_23 _ _ _) x
  · exact piece_later adds_sq (sq_row_22 _ _ _) x
  · exact piece_later adds_sq (sq_row_21 _ _ _) x
  · exact piece_later adds_sq (sq_row_20 _ _ _) x
  · exact piece_later adds_sq (sq_row_19 _ _ _) x
  · exact piece_later adds_sq (sq_row_18 _ _ _) x
  · exact piece_later adds_sq (sq_row_17 _ _ _) x
  · exact piece_later adds_sq (sq_row_16 _ _ _) x
  · exact piece_later adds_sq (sq_row_15 _ _ _) x
  · exact piece_later adds_sq (sq_row_14 _ _ _) x
  · exact piece_later adds_sq (sq_row_13 _ _ _) x
  · exact piece_later adds_sq (sq_row_12 _ _ _) x
  · exact piece_later adds_sq (sq_row_11 _ _ _) x
  · exact piece_later adds_sq (sq_row_10 _ _ _) x
  · exact piece_later adds_sq (sq_row_9 _ _ _) x
  · exact piece_later adds_sq (sq_row_8 _ _ _) x
  · exact piece_later adds_sq (sq_row_7 _ _ _) x
  · exact piece_later adds_sq (sq_row_6 _ _ _) x
  · exact piece_later adds_sq (sq_row_5 _ _ _) x
  · exact piece_later adds_sq (sq_row_4 _ _ _) x
  · exact piece_later adds_sq (sq_row_3 _ _ _) x
  · exact piece_later adds_sq (sq_row_2 _ _ _) x
  · exact piece_later adds_sq (sq_row_1 _ _ _) x
  · exact piece_later adds_sq (sq_row_0 _ _ _) x

end Cert.KernelIdeal.StatsPieces

end
-- ==== Proof.StatsInduct.lean ====
import proofs.«413776_j39324720562872_4_alg».proof.Proof.StatsRegion
import proofs.«413776_j39324720562872_4_alg».proof.Proof.StatsBlock
import proofs.«413776_j39324720562872_4_alg».proof.Proof.StatsRows
import proofs.«413776_j39324720562872_4_alg».proof.Proof.Spec
import Idealize.ShloMosaic.Lib.Pipeline.Value
import Idealize.ShloMosaic.Lib.ValueIdx
import Mathlib.Algebra.BigOperators.Fin

noncomputable section

namespace Cert.KernelIdeal.StatsInduct

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.StatsRegion Cert.KernelIdeal.StatsBlock

variable (V : (c : Dev nD) → (b : Ref sig .tc) → Buf (Elt Ideal) ((c : Thread nD τ).loc b))

theorem index0_0 : ∀ t : Fin cfg0.N, win0_0.index t 0 = t.val ∧ win0_0.index t 1 = 0 :=
  (by decide +kernel : ∀ t : Fin grid0.N, win0_0.index t 0 = t.val ∧ win0_0.index t 1 = 0)

theorem iblk_tab (c : Dev nD) (t : Fin cfg0.N) :
    (iblk0 V c 1 t : Vec Ideal S32x1001x64 .f32) = V c main_arg2 := by
  funext j
  unfold iblk0
  rw [View.read_apply]
  show V c main_arg2 _ = V c main_arg2 j
  congr 1
  funext a
  apply Fin.ext
  match a with
  | ⟨0, _⟩ => show 0 * 32 + 1 * (j 0).val = (j 0).val; omega
  | ⟨1, _⟩ => show 0 * 1001 + 1 * (j 1).val = (j 1).val; omega
  | ⟨2, _⟩ => show 0 * 64 + 1 * (j 2).val = (j 2).val; omega

theorem iblk_idx (c : Dev nD) (t : Fin cfg0.N) (r : Fin 256) (f : Fin 32) :
    (iblk0 V c 0 t : Vec Ideal S256x32 .i32) (ix2 r f)
      = V c main_arg0 (ix2 ⟨256 * t.val + r.val, by have := t.isLt; have : cfg0.N = 256 := N_0; omega⟩ f) := by
  unfold iblk0
  rw [View.read_apply]
  show V c main_arg0 _ = V c main_arg0 _
  congr 1
  funext a
  apply Fin.ext
  match a with
  | ⟨0, _⟩ => show win0_0.index t 0 * 256 + 1 * r.val = 256 * t.val + r.val; rw [(index0_0 t).1]; omega
  | ⟨1, _⟩ => show win0_0.index t 1 * 32 + 1 * f.val = f.val; rw [(index0_0 t).2]; omega

variable (c : Dev nD) (π : Vec Ideal S32x64 .f32 × Vec Ideal S32x64 .f32 → Vec Ideal S32x64 .f32) (g : EReal → EReal)
  (sh : Vec Ideal S256x32 .i32 → Vec Ideal S32x1001x64 .f32 → Fin 32 → Fin 64 → EReal)
  (hsh : ∀ x0 x1 f d, sh x0 x1 f d = ∑ r : Fin 256, g (x1 (ix3 f (Cert.EmbNorm.rowOf (x0 (ix2 r f))) d)))
  (hA : ∀ t h0, π (accA V c t h0) = fun y => sh (iblk0 V c 0 t) (iblk0 V c 1 t) (y 0) (y 1))
  (hB : ∀ t h0 a, π (accB V c t h0 a) = fun y => π a y + sh (iblk0 V c 0 t) (iblk0 V c 1 t) (y 0) (y 1))

-- Point t's share of channel (f, d); zero past the grid.
def shareAt (f : Fin 32) (d : Fin 64) (t : ℕ) : EReal :=
  if h : t < cfg0.N then sh (iblk0 V c 0 ⟨t, h⟩) (iblk0 V c 1 ⟨t, h⟩) f d else 0

include hA hB in
-- After point n a component of the accumulators holds the shares of points 0 … n.
theorem acc_fold (f : Fin 32) (d : Fin 64) : ∀ (n : ℕ) (hn : n < cfg0.N),
    π (acc0 V c n hn) (ix2 f d) = ∑ t ∈ Finset.range (n + 1), shareAt V c sh f d t
  | 0, hn => by
    rw [Finset.sum_range_one, shareAt, dif_pos hn]
    show π (accA V c ⟨0, hn⟩ rfl) (ix2 f d) = _
    rw [hA]
  | n + 1, hn => by
    rw [Finset.sum_range_succ, ← acc_fold f d n (Nat.lt_of_succ_lt hn), shareAt, dif_pos hn]
    show π (accB V c ⟨n + 1, hn⟩ (Nat.succ_ne_zero n) (acc0 V c n (Nat.lt_of_succ_lt hn))) (ix2 f d) = _
    rw [hB]

include hsh in
-- Point t reads batch rows 256 t … 256 t + 255 and the whole table.
theorem shareAt_eq (f : Fin 32) (d : Fin 64) (t : Fin 256) :
    shareAt V c sh f d t.val
      = ∑ r : Fin 256, g (Cert.EmbNorm.emb (V c main_arg2) (V c main_arg0) ⟨256 * t.val + r.val, by omega⟩ f d) := by
  have ht : t.val < cfg0.N := by rw [show cfg0.N = 256 from N_0]; exact t.isLt
  rw [shareAt, dif_pos ht, hsh]
  refine Finset.sum_congr rfl fun r _ => ?_
  rw [iblk_tab, iblk_idx]
  rfl

include hsh hA hB in
-- After the last point: the sum over the whole batch.
theorem acc_total (f : Fin 32) (d : Fin 64) (h255 : 255 < cfg0.N) :
    π (acc0 V c 255 h255) (ix2 f d) = ∑ b : Fin 65536, g (Cert.EmbNorm.emb (V c main_arg2) (V c main_arg0) b f d) := by
  rw [acc_fold V c π sh hA hB f d 255 h255, Finset.sum_range, StatsRows.sum_batch]
  exact Finset.sum_congr rfl fun t _ => shareAt_eq V c g sh hsh f d t

end Cert.KernelIdeal.StatsInduct

end
-- ==== Proof.StatsFlush.lean ====
import proofs.«413776_j39324720562872_4_alg».proof.Proof.StatsRegion
import proofs.«413776_j39324720562872_4_alg».proof.Proof.Gen.KernelIdeal.Points
import Idealize.ShloMosaic.Lib.Pipeline.Value

noncomputable section

namespace Cert.KernelIdeal.StatsFlush

open Idealize.ShloMosaic Idealize.ShloMosaic.TcCoe Idealize.SL.Sem
open Idealize.ShloMosaic.Pipeline (Dat)
open Cert.KernelIdeal Cert.KernelIdeal.Gen Cert.KernelIdeal.StatsRegion

variable {F : FTy → Type} [FloatOps F]
variable (V : (c : Dev nD) → (b : Ref sig .tc) → Buf (Elt F) ((c : Thread nD τ).loc b))

theorem index0_2 : ∀ (t : Fin cfg0.N) (a : Fin 2), win0_2.index t a = 0 :=
  (by decide +kernel : ∀ (t : Fin grid0.N) (a : Fin 2), win0_2.index t a = 0)

theorem xsize0_2 : ∀ (t : Fin cfg0.N) (a : Fin 2), win0_2.xsize (grid0.coords t) a = S32x64.size a :=
  (by decide +kernel : ∀ (t : Fin grid0.N) (a : Fin 2), win0_2.xsize (grid0.coords t) a = S32x64.size a)

theorem cut_last_2 (h255 : 255 < cfg0.N) (X : Vec F S32x64 .f32) :
    (cfg0.win 2).cut (grid0.coords ⟨255, h255⟩) X = ((cfg0.win 2).blk ⟨255, h255⟩).view.read (Elt F) X := by
  have hz' : (fun a => win0_2.index ⟨255, h255⟩ a * main_v0_0.ty.shape.size a) = fun _ => 0 :=
    funext fun a => by simp only [index0_2, Nat.zero_mul]
  exact (Memref.read_access_unit_zero (Elt F) main_v0_0 hz' (fun a => by rw [congrFun hz' a]; simp) X).symm

theorem flushed_2 (c : Dev nD) (h255 : 255 < cfg0.N) (t : Fin cfg0.N) (hf : (cfg0.win 2).flush t = true) :
    (dat0 V c).flushed 2 t = ((cfg0.win 2).blk t).view.read (Elt F) ((acc0 V c 255 h255).1) := by
  have hN : cfg0.N = 256 := N_0
  have h3 : t.val = 255 := by have := (flush0_2 t).mp hf; have := t.isLt; omega
  obtain rfl : t = ⟨255, h255⟩ := Fin.ext h3
  show (cfg0.win 2).cut (grid0.coords ⟨255, h255⟩) ((dat0 V c).after 2 ⟨255, h255⟩) = _
  rw [after0_2]
  exact cut_last_2 h255 _

theorem cover_last_2 (c : Dev nD) (h255 : 255 < cfg0.N) (i : ((cfg0.win 2).arr.view.loc (c.tc : Thread nD τ)).2.ty.Idx) :
    i ∈ ((cfg0.win 2).blk ⟨255, h255⟩).view.set := by
  show i ∈ ((View.whole main_v0_0).slice (win0_2.rect ⟨255, h255⟩)).set
  rw [View.set_slice_whole, Rect.mem_set_unit]
  intro a
  rw [index0_2, xsize0_2, Nat.zero_mul, Nat.zero_add]
  exact ⟨Nat.zero_le _, (i a).isLt⟩

theorem arrAt_2 (c : Dev nD) (h255 : 255 < cfg0.N) : (dat0 V c).arrAt 2 cfg0.N = (acc0 V c 255 h255).1 :=
  (dat0 V c).arrAt_eq_of_cover 2 ((acc0 V c 255 h255).1) (flushed_2 V c h255) fun i =>
    ⟨⟨255, h255⟩, (flush0_2 _).mpr rfl, cover_last_2 c h255 i⟩

theorem index0_3 : ∀ (t : Fin cfg0.N) (a : Fin 2), win0_3.index t a = 0 :=
  (by decide +kernel : ∀ (t : Fin grid0.N) (a : Fin 2), win0_3.index t a = 0)

theorem xsize0_3 : ∀ (t : Fin cfg0.N) (a : Fin 2), win0_3.xsize (grid0.coords t) a = S32x64.size a :=
  (by decide +kernel : ∀ (t : Fin grid0.N) (a : Fin 2), win0_3.xsize (grid0.coords t) a = S32x64.size a)

theorem cut_last_3 (h255 : 255 < cfg0.N) (X : Vec F S32x64 .f32) :
    (cfg0.win 3).cut (grid0.coords ⟨255, h255⟩) X = ((cfg0.win 3).blk ⟨255, h255⟩).view.read (Elt F) X := by
  have hz' : (fun a => win0_3.index ⟨255, h255⟩ a * main_v0_1.ty.shape.size a) = fun _ => 0 :=
    funext fun a => by simp only [index0_3, Nat.zero_mul]
  exact (Memref.read_access_unit_zero (Elt F) main_v0_1 hz' (fun a => by rw [congrFun hz' a]; simp) X).symm

theorem flushed_3 (c : Dev nD) (h255 : 255 < cfg0.N) (t : Fin cfg0.N) (hf : (cfg0.win 3).flush t = true) :
    (dat0 V c).flushed 3 t = ((cfg0.win 3).blk t).view.read (Elt F) ((acc0 V c 255 h255).2) := by
  have hN : cfg0.N = 256 := N_0
  have h3 : t.val = 255 := by have := (flush0_3 t).mp hf; have := t.isLt; omega
  obtain rfl : t = ⟨255, h255⟩ := Fin.ext h3
  show (cfg0.win 3).cut (grid0.coords ⟨255, h255⟩) ((dat0 V c).after 3 ⟨255, h255⟩) = _
  rw [after0_3]
  exact cut_last_3 h255 _

theorem cover_last_3 (c : Dev nD) (h255 : 255 < cfg0.N) (i : ((cfg0.win 3).arr.view.loc (c.tc : Thread nD τ)).2.ty.Idx) :
    i ∈ ((cfg0.win 3).blk ⟨255, h255⟩).view.set := by
  show i ∈ ((View.whole main_v0_1).slice (win0_3.rect ⟨255, h255⟩)).set
  rw [View.set_slice_whole, Rect.mem_set_unit]
  intro a
  rw [index0_3, xsize0_3, Nat.zero_mul, Nat.zero_add]
  exact ⟨Nat.zero_le _, (i a).isLt⟩

theorem arrAt_3 (c : Dev nD) (h255 : 255 < cfg0.N) : (dat0 V c).arrAt 3 cfg0.N = (acc0 V c 255 h255).2 :=
  (dat0 V c).arrAt_eq_of_cover 3 ((acc0 V c 255 h255).2) (flushed_3 V c h255) fun i =>
    ⟨⟨255, h255⟩, (flush0_3 _).mpr rfl, cover_last_3 c h255 i⟩

end Cert.KernelIdeal.StatsFlush

end
-- ==== Proof.StatsValue.lean ====
import proofs.«413776_j39324720562872_4_alg».proof.Proof.StatsPieces
import proofs.«413776_j39324720562872_4_alg».proof.Proof.StatsInduct
import proofs.«413776_j39324720562872_4_alg».proof.Proof.StatsFlush
import proofs.«413776_j39324720562872_4_alg».proof.Proof.Spec

noncomputable section

namespace Cert.KernelIdeal.StatsValue

open Idealize.ShloMosaic Idealize.ShloMosaic.TcCoe Idealize.SL.Sem Idealize.ShloMosaic.ValueIdx
open Idealize.ShloMosaic.Pipeline (Dat)
open Cert.KernelIdeal Cert.KernelIdeal.StatsRegion Cert.KernelIdeal.StatsBlock Cert.KernelIdeal.StatsPieces

variable (V : (c : Dev nD) → (b : Ref sig .tc) → Buf (Elt Ideal) ((c : Thread nD τ).loc b))

-- After the 256 grid points the first output array holds the batch totals,
theorem sum_value (c : Dev nD) :
    (dat0 V c).arrAt 2 cfg0.N = fun j => Cert.EmbNorm.total (V c main_arg2) (V c main_arg0) (j 0) (j 1) := by
  have h255 : 255 < cfg0.N := by decide
  rw [StatsFlush.arrAt_2 V c h255]
  funext j
  exact (congrArg (acc0 V c 255 h255).1 (eq_ix2 j)).trans
    (StatsInduct.acc_total V c Prod.fst id blockSum (fun _ _ _ _ => rfl) (accA_fst V c) (accB_fst V c) (j 0) (j 1) h255)

-- and the second the batch totals of squares.
theorem sumsq_value (c : Dev nD) :
    (dat0 V c).arrAt 3 cfg0.N = fun j => Cert.EmbNorm.totalSq (V c main_arg2) (V c main_arg0) (j 0) (j 1) := by
  have h255 : 255 < cfg0.N := by decide
  rw [StatsFlush.arrAt_3 V c h255]
  funext j
  exact (congrArg (acc0 V c 255 h255).2 (eq_ix2 j)).trans
    (StatsInduct.acc_total V c Prod.snd (fun v => v * v) blockSq (fun _ _ _ _ => rfl) (accA_snd V c) (accB_snd V c) (j 0) (j 1) h255)

end Cert.KernelIdeal.StatsValue

end
-- ==== Proof.NormBlock.lean ====
import proofs.«413776_j39324720562872_4_alg».proof.KernelIdeal
import proofs.«413776_j39324720562872_4_alg».proof.Proof.Spec
import Idealize.ShloMosaic.Lib.ValueIdx

noncomputable section

namespace Cert.KernelIdeal.NormBlock

open Idealize.ShloMosaic Idealize.ShloMosaic.ValueIdx
open Cert.KernelIdeal

def normedAt (x : IVec S256x32 32) (tb : S32x1001x64.Idx → EReal) (mu sc ga be : S32x64.Idx → EReal)
    (r : Fin 256) (f : Fin 32) (d : Fin 64) : EReal :=
  max ((tb (ix3 f (Cert.EmbNorm.rowOf (x (ix2 r f))) d) - mu (ix2 f d)) * sc (ix2 f d) * ga (ix2 f d) + be (ix2 f d))
    Cert.EmbNorm.zero

def blockAt (x : IVec S256x32 32) (tb : S32x1001x64.Idx → EReal) (mu sc ga be : S32x64.Idx → EReal) (num : S256x16.Idx → EReal)
    (r : Fin 256) (j : Fin 2064) : EReal :=
  if h : j.val < 2048 then
    normedAt x tb mu sc ga be r ⟨j.val / 64, by omega⟩ ⟨j.val % 64, Nat.mod_lt _ (by decide)⟩
  else num (ix2 r ⟨j.val - 2048, by have := j.isLt; omega⟩)

def blockVal (x : IVec S256x32 32) (tb : S32x1001x64.Idx → EReal) (mu sc ga be : S32x64.Idx → EReal) (num : S256x16.Idx → EReal) :
    S256x2064.Idx → EReal := fun y => blockAt x tb mu sc ga be num (y 0) (y 1)

theorem blockVal_ix2 (x : IVec S256x32 32) (tb : S32x1001x64.Idx → EReal) (mu sc ga be : S32x64.Idx → EReal) (num : S256x16.Idx → EReal)
    (r : Fin 256) (j : Fin 2064) : blockVal x tb mu sc ga be num (ix2 r j) = blockAt x tb mu sc ga be num r j := rfl

end Cert.KernelIdeal.NormBlock

end
-- ==== Proof.NormArray.lean ====
import proofs.«413776_j39324720562872_4_alg».proof.Proof.NormRegion
import proofs.«413776_j39324720562872_4_alg».proof.Proof.NormBlock
import proofs.«413776_j39324720562872_4_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.NormArray

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.NormRegion
open Cert.EmbNorm (outWith normedWith emb rowOf)

section Pure

variable (x : IVec S256x32 32) (tb : S32x1001x64.Idx → EReal) (mu sc ga be : S32x64.Idx → EReal) (num : S256x16.Idx → EReal)
variable (idx : IVec Cert.EmbNorm.SIdx 32) (nm : Cert.EmbNorm.SNum.Idx → EReal)

theorem blockAt_lo (r : Fin 256) (j : Fin 2064) (f : Fin 32) (d : Fin 64) (h : j.val = 64 * f.val + d.val) :
    NormBlock.blockAt x tb mu sc ga be num r j = NormBlock.normedAt x tb mu sc ga be r f d := by
  have hd := d.isLt
  unfold NormBlock.blockAt
  rw [dif_pos (by omega : j.val < 2048)]
  congr 1 <;> apply Fin.ext <;> dsimp only <;> omega

theorem blockAt_hi (r : Fin 256) (j : Fin 2064) (k : Fin 16) (h : j.val = 2048 + k.val) :
    NormBlock.blockAt x tb mu sc ga be num r j = num (ix2 r k) := by
  unfold NormBlock.blockAt
  rw [dif_neg (by omega : ¬ j.val < 2048)]
  congr 2; apply Fin.ext; dsimp only; omega

theorem outWith_lo (i : Cert.EmbNorm.SOut.Idx) (f : Fin 32) (d : Fin 64) (h : (i 1).val = 64 * f.val + d.val) :
    outWith idx nm tb mu sc ga be i = normedWith tb idx mu sc ga be (i 0) f d := by
  have hd := d.isLt
  unfold Cert.EmbNorm.outWith
  rw [dif_pos (by omega : (i 1).val < 2048)]
  congr 1 <;> apply Fin.ext <;> dsimp only <;> omega

theorem outWith_hi (i : Cert.EmbNorm.SOut.Idx) (k : Fin 16) (h : (i 1).val = 2048 + k.val) :
    outWith idx nm tb mu sc ga be i = nm (ix2 (i 0) k) := by
  unfold Cert.EmbNorm.outWith
  rw [dif_neg (by omega : ¬ (i 1).val < 2048)]
  congr 2; apply Fin.ext; dsimp only; omega

theorem blockVal_eq_outWith (t : ℕ)
    (hx : ∀ (r : Fin 256) (f : Fin 32) (b : Fin 65536), b.val = 256 * t + r.val → x (ix2 r f) = idx (ix2 b f))
    (hn : ∀ (r : Fin 256) (k : Fin 16) (b : Fin 65536), b.val = 256 * t + r.val → num (ix2 r k) = nm (ix2 b k))
    (y : S256x2064.Idx) (i : Cert.EmbNorm.SOut.Idx) (h0 : (i 0).val = 256 * t + (y 0).val) (h1 : (i 1).val = (y 1).val) :
    NormBlock.blockVal x tb mu sc ga be num y = outWith idx nm tb mu sc ga be i := by
  have hy1 : (y 1).val < 2064 := (y 1).isLt
  show NormBlock.blockAt x tb mu sc ga be num (y 0) (y 1) = _
  by_cases h : (y 1).val < 2048
  · rw [blockAt_lo x tb mu sc ga be num (y 0) (y 1) ⟨(y 1).val / 64, by omega⟩ ⟨(y 1).val % 64, Nat.mod_lt _ (by decide)⟩ (by show _ = 64 * ((y 1).val / 64) + (y 1).val % 64; omega),
      outWith_lo tb mu sc ga be idx nm i ⟨(y 1).val / 64, by omega⟩ ⟨(y 1).val % 64, Nat.mod_lt _ (by decide)⟩ (by show _ = 64 * ((y 1).val / 64) + (y 1).val % 64; omega)]
    unfold NormBlock.normedAt Cert.EmbNorm.normedWith Cert.EmbNorm.emb
    rw [hx (y 0) _ (i 0) h0]
  · rw [blockAt_hi x tb mu sc ga be num (y 0) (y 1) ⟨(y 1).val - 2048, by omega⟩ (by show _ = 2048 + ((y 1).val - 2048); omega),
      outWith_hi tb mu sc ga be idx nm i ⟨(y 1).val - 2048, by omega⟩ (by show _ = 2048 + ((y 1).val - 2048); omega)]
    exact hn (y 0) _ (i 0) h0

end Pure

theorem idx_facts : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

section Region

variable (V : (c : Dev nD) → (b : Ref sig .tc) → Buf (Elt Ideal) ((c : Thread nD τ).loc b))

theorem iblk_idx (c : Dev nD) (t : Fin cfg1.N) (r : Fin 256) (f : Fin 32) (b : Fin 65536) (hb : b.val = 256 * t.val + r.val) :
    (iblk1 V c 0 t : IVec S256x32 32) (ix2 r f) = (V c main_arg0 : IVec S65536x32 32) (ix2 b f) := by
  obtain ⟨e0, e1, -⟩ := idx_facts t
  show V c main_arg0 (((cfg1.win 0).blk t).view.emb (ix2 r f)) = V c main_arg0 (ix2 b f)
  refine congrArg _ (funext fun a => Fin.ext ?_)
  match a with
  | ⟨0, _⟩ => show win1_0.index t (0 : Fin 2) * 256 + 1 * r.val = b.val; omega
  | ⟨1, _⟩ => show win1_0.index t (1 : Fin 2) * 32 + 1 * f.val = f.val; omega

theorem iblk_num (c : Dev nD) (t : Fin cfg1.N) (r : Fin 256) (k : Fin 16) (b : Fin 65536) (hb : b.val = 256 * t.val + r.val) :
    (iblk1 V c 6 t : S256x16.Idx → EReal) (ix2 r k) = (V c main_arg1 : S65536x16.Idx → EReal) (ix2 b k) := by
  obtain ⟨-, -, -, -, -, -, -, -, -, -, -, -, -, e0, e1, -⟩ := idx_facts t
  show V c main_arg1 (((cfg1.win 6).blk t).view.emb (ix2 r k)) = V c main_arg1 (ix2 b k)
  refine congrArg _ (funext fun a => Fin.ext ?_)
  match a with
  | ⟨0, _⟩ => show win1_6.index t (0 : Fin 2) * 256 + 1 * r.val = b.val; omega
  | ⟨1, _⟩ => show win1_6.index t (1 : Fin 2) * 16 + 1 * k.val = k.val; omega

theorem iblk_tab (c : Dev nD) (t : Fin cfg1.N) (y : S32x1001x64.Idx) :
    (iblk1 V c 1 t : S32x1001x64.Idx → EReal) y = (V c main_arg2 : S32x1001x64.Idx → EReal) y := by
  obtain ⟨-, -, e0, e1, e2, -⟩ := idx_facts t
  show V c main_arg2 (((cfg1.win 1).blk t).view.emb y) = V c main_arg2 y
  refine congrArg _ (funext fun a => Fin.ext ?_)
  match a with
  | ⟨0, _⟩ => show win1_1.index t (0 : Fin 3) * 32 + 1 * (y 0).val = (y 0).val; omega
  | ⟨1, _⟩ => show win1_1.index t (1 : Fin 3) * 1001 + 1 * (y 1).val = (y 1).val; omega
  | ⟨2, _⟩ => show win1_1.index t (2 : Fin 3) * 64 + 1 * (y 2).val = (y 2).val; omega

theorem iblk_mean (c : Dev nD) (t : Fin cfg1.N) (y : S32x64.Idx) :
    (iblk1 V c 2 t : S32x64.Idx → EReal) y = (V c main_v2 : S32x64.Idx → EReal) y := by
  obtain ⟨-, -, -, -, -, e0, e1, -, -, -, -, -, -, -, -, -, -⟩ := idx_facts t
  show V c main_v2 (((cfg1.win 2).blk t).view.emb y) = V c main_v2 y
  refine congrArg _ (funext fun a => Fin.ext ?_)
  match a with
  | ⟨0, _⟩ => show win1_2.index t (0 : Fin 2) * 32 + 1 * (y 0).val = (y 0).val; omega
  | ⟨1, _⟩ => show win1_2.index t (1 : Fin 2) * 64 + 1 * (y 1).val = (y 1).val; omega

theorem iblk_scale (c : Dev nD) (t : Fin cfg1.N) (y : S32x64.Idx) :
    (iblk1 V c 3 t : S32x64.Idx → EReal) y = (V c main_v11 : S32x64.Idx → EReal) y := by
  obtain ⟨-, -, -, -, -, -, -, e0, e1, -, -, -, -, -, -, -, -⟩ := idx_facts t
  show V c main_v11 (((cfg1.win 3).blk t).view.emb y) = V c main_v11 y
  refine congrArg _ (funext fun a => Fin.ext ?_)
  match a with
  | ⟨0, _⟩ => show win1_3.index t (0 : Fin 2) * 32 + 1 * (y 0).val = (y 0).val; omega
  | ⟨1, _⟩ => show win1_3.index t (1 : Fin 2) * 64 + 1 * (y 1).val = (y 1).val; omega

theorem iblk_gamma (c : Dev nD) (t : Fin cfg1.N) (y : S32x64.Idx) :
    (iblk1 V c 4 t : S32x64.Idx → EReal) y = (V c main_arg3 : S32x64.Idx → EReal) y := by
  obtain ⟨-, -, -, -, -, -, -, -, -, e0, e1, -, -, -, -, -, -⟩ := idx_facts t
  show V c main_arg3 (((cfg1.win 4).blk t).view.emb y) = V c main_arg3 y
  refine congrArg _ (funext fun a => Fin.ext ?_)
  match a with
  | ⟨0, _⟩ => show win1_4.index t (0 : Fin 2) * 32 + 1 * (y 0).val = (y 0).val; omega
  | ⟨1, _⟩ => show win1_4.index t (1 : Fin 2) * 64 + 1 * (y 1).val = (y 1).val; omega

theorem iblk_beta (c : Dev nD) (t : Fin cfg1.N) (y : S32x64.Idx) :
    (iblk1 V c 5 t : S32x64.Idx → EReal) y = (V c main_arg4 : S32x64.Idx → EReal) y := by
  obtain ⟨-, -, -, -, -, -, -, -, -, -, -, e0, e1, -, -, -, -⟩ := idx_facts t
  show V c main_arg4 (((cfg1.win 5).blk t).view.emb y) = V c main_arg4 y
  refine congrArg _ (funext fun a => Fin.ext ?_)
  match a with
  | ⟨0, _⟩ => show win1_5.index t (0 : Fin 2) * 32 + 1 * (y 0).val = (y 0).val; omega
  | ⟨1, _⟩ => show win1_5.index t (1 : Fin 2) * 64 + 1 * (y 1).val = (y 1).val; omega

theorem flushed_eq (c : Dev nD)
    (hblock : ∀ (t : Fin cfg1.N) (y : S256x2064.Idx), (dat1 V c).after 7 t y = NormBlock.blockVal (iblk1 V c 0 t) (iblk1 V c 1 t) (iblk1 V c 2 t) (iblk1 V c 3 t) (iblk1 V c 4 t) (iblk1 V c 5 t) (iblk1 V c 6 t) y)
    (t : Fin cfg1.N) :
    (dat1 V c).flushed 7 t = ((cfg1.win 7).blk t).view.read (Elt Ideal)
      (outWith (V c main_arg0) (V c main_arg1) (V c main_arg2) (V c main_v2) (V c main_v11) (V c main_arg3) (V c main_arg4)) := by
  obtain ⟨-, -, -, -, -, -, -, -, -, -, -, -, -, -, -, e0, e1⟩ := idx_facts t
  show (cfg1.win 7).cut (grid1.coords t) ((dat1 V c).after 7 t) = _
  funext y
  show (dat1 V c).after 7 t y = outWith (V c main_arg0) (V c main_arg1) (V c main_arg2) (V c main_v2) (V c main_v11) (V c main_arg3) (V c main_arg4) (((cfg1.win 7).blk t).view.emb y)
  rw [hblock t y]
  have hy0 : (y 0).val < 256 := (y 0).isLt
  have hy1 : (y 1).val < 2064 := (y 1).isLt
  have hfun : (iblk1 V c 1 t : S32x1001x64.Idx → EReal) = V c main_arg2 := funext (iblk_tab V c t)
  have hmu : (iblk1 V c 2 t : S32x64.Idx → EReal) = V c main_v2 := funext (iblk_mean V c t)
  have hsc : (iblk1 V c 3 t : S32x64.Idx → EReal) = V c main_v11 := funext (iblk_scale V c t)
  have hga : (iblk1 V c 4 t : S32x64.Idx → EReal) = V c main_arg3 := funext (iblk_gamma V c t)
  have hbe : (iblk1 V c 5 t : S32x64.Idx → EReal) = V c main_arg4 := funext (iblk_beta V c t)
  refine (blockVal_eq_outWith _ _ _ _ _ _ _ (V c main_arg0) (V c main_arg1) t.val
    (fun r f b hb => iblk_idx V c t r f b hb) (fun r k b hb => iblk_num V c t r k b hb) y
    (((cfg1.win 7).blk t).view.emb y) ?_ ?_).trans ?_
  · show win1_7.index t (0 : Fin 2) * 256 + 1 * (y 0).val = 256 * t.val + (y 0).val; omega
  · show win1_7.index t (1 : Fin 2) * 2064 + 1 * (y 1).val = (y 1).val; omega
  · rw [hfun, hmu, hsc, hga, hbe]

theorem mem_blk (t : Fin cfg1.N) (i : S65536x2064.Idx) :
    i ∈ ((cfg1.win 7).blk t).view.set ↔ ∀ a : Fin 2, win1_7.index t a * S256x2064.size a ≤ (i a).val ∧ (i a).val < win1_7.index t a * S256x2064.size a + S256x2064.size a := by
  show i ∈ ((View.whole main_v12).slice (win1_7.rect t)).set ↔ _
  rw [View.set_slice_whole, Rect.mem_set_unit]
  exact Iff.rfl

theorem cover (i : S65536x2064.Idx) : ∃ t : Fin cfg1.N, (cfg1.win 7).flush t = true ∧ i ∈ ((cfg1.win 7).blk t).view.set := by
  have hi0 : (i 0).val < 65536 := (i 0).isLt
  have hi1 : (i 1).val < 2064 := (i 1).isLt
  have hN : cfg1.N = 256 := N_1
  refine ⟨⟨(i 0).val / 256, by rw [hN]; omega⟩, flush1_7 _, ?_⟩
  obtain ⟨-, -, -, -, -, -, -, -, -, -, -, -, -, -, -, e0, e1⟩ := idx_facts ⟨(i 0).val / 256, by rw [hN]; omega⟩
  rw [mem_blk]
  intro a
  match a with
  | ⟨0, _⟩ =>
    show win1_7.index _ (0 : Fin 2) * 256 ≤ (i 0).val ∧ (i 0).val < win1_7.index _ (0 : Fin 2) * 256 + 256
    rw [e0]; show (i 0).val / 256 * 256 ≤ (i 0).val ∧ (i 0).val < (i 0).val / 256 * 256 + 256; omega
  | ⟨1, _⟩ =>
    show win1_7.index _ (1 : Fin 2) * 2064 ≤ (i 1).val ∧ (i 1).val < win1_7.index _ (1 : Fin 2) * 2064 + 2064
    rw [e1]; omega

theorem out_value_of (c : Dev nD)
    (hblock : ∀ (t : Fin cfg1.N) (y : S256x2064.Idx), (dat1 V c).after 7 t y = NormBlock.blockVal (iblk1 V c 0 t) (iblk1 V c 1 t) (iblk1 V c 2 t) (iblk1 V c 3 t) (iblk1 V c 4 t) (iblk1 V c 5 t) (iblk1 V c 6 t) y) :
    (dat1 V c).arrAt 7 cfg1.N = Cert.EmbNorm.outWith (V c main_arg0) (V c main_arg1) (V c main_arg2) (V c main_v2) (V c main_v11) (V c main_arg3) (V c main_arg4) :=
  (dat1 V c).arrAt_eq_of_cover 7 _ (fun t _ => flushed_eq V c hblock t) cover

end Region

end Cert.KernelIdeal.NormArray

end
-- ==== Proof.NormValue.lean ====
import proofs.«413776_j39324720562872_4_alg».proof.Proof.NormRegion
import proofs.«413776_j39324720562872_4_alg».proof.Proof.Spec
import proofs.«413776_j39324720562872_4_alg».proof.Proof.OneHotRows
import proofs.«413776_j39324720562872_4_alg».proof.Proof.NormBlock
import proofs.«413776_j39324720562872_4_alg».proof.Proof.NormArray
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.NormValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.NormRegion Cert.KernelIdeal.Rows

section Pieces
variable {F : FTy → Type} [FloatOps F]

abbrev chanRect (f : ℕ) (hf : f < 32) : Rect S32x64 :=
  Rect.unit (s := S32x64) ![f, 0] S1x64.size (Rect.inb₂ (by show f + 1 ≤ 32; omega) (by show 0 + 64 ≤ 64; omega))

abbrev tabRect (f : ℕ) (hf : f < 32) : Rect S32x1001x64 :=
  Rect.unit (s := S32x1001x64) ![f, 0, 0] S1x1001x64.size (fun a => by
    match a with
    | ⟨0, _⟩ => show f + 1 ≤ 32; omega
    | ⟨1, _⟩ => show 0 + 1001 ≤ 1001; omega
    | ⟨2, _⟩ => show 0 + 64 ≤ 64; omega)

abbrev overRows (v : Vec F S1x64 .f32) : FVec F S256x64 .f32 :=
  broadcastTo S256x64 (shapeCast S1x64 (shapeCast S64 v shapeCasts_S1x64_S64) shapeCasts_S64_S1x64) broadcasts_S1x64_S256x64

def featVal (f : ℕ) (hf : f < 32) (hs : S256x32.Slices ![0, f] S256x1) (x : Vec F S256x32 .i32) (tb : Vec F S32x1001x64 .f32)
    (mu sc ga be : Vec F S32x64 .f32) : FVec F S256x64 .f32 :=
  maximumf
    (addf (mulf (mulf (subf
      (selRows f hs x (shapeCast S1001x64 (View.ld tb (tabRect f hf)) shapeCasts_S1x1001x64_S1001x64))
      (overRows (View.ld mu (chanRect f hf)))) (overRows (View.ld sc (chanRect f hf)))) (overRows (View.ld ga (chanRect f hf))))
      (overRows (View.ld be (chanRect f hf))))
    (broadcast S256x64 (Scalar.ofBits .f32 0x00000000#32))

theorem slices_col (f : ℕ) (hf : f < 32) : S256x32.Slices ![0, f] S256x1 :=
  ⟨rfl, fun a => by
    match a with
    | ⟨0, _⟩ => show 0 + 256 ≤ 256; omega
    | ⟨1, _⟩ => show f + 1 ≤ 32; omega⟩

def pairPiece (off f0 f1 : ℕ) (hoff : off + 128 ≤ 2064) (h0 : f0 < 32) (h1 : f1 < 32) (x : Vec F S256x32 .i32) (tb : Vec F S32x1001x64 .f32)
    (mu sc ga be : Vec F S32x64 .f32) : View.Piece (Elt F) S256x2064 .f32 :=
  ⟨Rect.unit (s := S256x2064) ![0, off] ![256, 128] (Rect.inb₂ (by show 0 + 256 ≤ 256; omega) (by show off + 128 ≤ 2064; omega)),
    concatenate S256x128 1 [⟨S256x64, featVal f0 h0 (slices_col f0 h0) x tb mu sc ga be⟩, ⟨S256x64, featVal f1 h1 (slices_col f1 h1) x tb mu sc ga be⟩]
      concatenates_S256x64_S256x64_S256x128_d1⟩

def numPiece (num : Vec F S256x16 .f32) : View.Piece (Elt F) S256x2064 .f32 :=
  ⟨Rect.unit (s := S256x2064) ![0, 2048] ![256, 16] inb_S256x2064_S256x16_0_2048,
    View.ld num (Rect.unit (s := S256x16) ![0, 0] ![256, 16] inb_S256x16_S256x16_0_0)⟩

def pieceList (x : Vec F S256x32 .i32) (tb : Vec F S32x1001x64 .f32) (mu sc ga be : Vec F S32x64 .f32) (num : Vec F S256x16 .f32) :
    List (View.Piece (Elt F) S256x2064 .f32) :=
  [numPiece num,
   pairPiece 1920 30 31 (by omega) (by omega) (by omega) x tb mu sc ga be,
   pairPiece 1792 28 29 (by omega) (by omega) (by omega) x tb mu sc ga be,
   pairPiece 1664 26 27 (by omega) (by omega) (by omega) x tb mu sc ga be,
   pairPiece 1536 24 25 (by omega) (by omega) (by omega) x tb mu sc ga be,
   pairPiece 1408 22 23 (by omega) (by omega) (by omega) x tb mu sc ga be,
   pairPiece 1280 20 21 (by omega) (by omega) (by omega) x tb mu sc ga be,
   pairPiece 1152 18 19 (by omega) (by omega) (by omega) x tb mu sc ga be,
   pairPiece 1024 16 17 (by omega) (by omega) (by omega) x tb mu sc ga be,
   pairPiece 896 14 15 (by omega) (by omega) (by omega) x tb mu sc ga be,
   pairPiece 768 12 13 (by omega) (by omega) (by omega) x tb mu sc ga be,
   pairPiece 640 10 11 (by omega) (by omega) (by omega) x tb mu sc ga be,
   pairPiece 512 8 9 (by omega) (by omega) (by omega) x tb mu sc ga be,
   pairPiece 384 6 7 (by omega) (by omega) (by omega) x tb mu sc ga be,
   pairPiece 256 4 5 (by omega) (by omega) (by omega) x tb mu sc ga be,
   pairPiece 128 2 3 (by omega) (by omega) (by omega) x tb mu sc ga be,
   pairPiece 0 0 1 (by omega) (by omega) (by omega) x tb mu sc ga be]

theorem hz2 : (![0, 0] : Fin 2 → Nat) = fun _ => 0 := funext fun a => by fin_cases a <;> rfl

set_option maxHeartbeats 4000000 in

theorem pieces_eq (c : Dev nD) (i : grid1.Coords)
    (arg1 : Memref sig .tc .vmem S256x32 .i32) (harg1 : arg1.IsWhole) (arg2 : Memref sig .tc .vmem S32x1001x64 .f32) (harg2 : arg2.IsWhole)
    (arg3 : Memref sig .tc .vmem S32x64 .f32) (harg3 : arg3.IsWhole) (arg4 : Memref sig .tc .vmem S32x64 .f32) (harg4 : arg4.IsWhole)
    (arg5 : Memref sig .tc .vmem S32x64 .f32) (harg5 : arg5.IsWhole) (arg6 : Memref sig .tc .vmem S32x64 .f32) (harg6 : arg6.IsWhole)
    (arg7 : Memref sig .tc .vmem S256x16 .f32) (harg7 : arg7.IsWhole) (arg8 : Memref sig .tc .vmem S256x2064 .f32) (harg8 : arg8.IsWhole)
    (x1 : Vec F S256x32 .i32) (x2 : Vec F S32x1001x64 .f32) (x3 x4 x5 x6 : Vec F S32x64 .f32) (x7 : Vec F S256x16 .f32) :
    (kernelRun1 c i arg1 harg1 arg2 harg2 arg3 harg3 arg4 harg4 arg5 harg5 arg6 harg6 arg7 harg7 arg8 harg8 x1 x2 x3 x4 x5 x6 x7).1 = pieceList x1 x2 x3 x4 x5 x6 x7 := by
  unfold kernelRun1; dsimp only; sl_unfold_words
  simp only [View.readAt_eq_ld, harg1.read_unread, harg2.read_unread, harg3.read_unread, harg4.read_unread, harg5.read_unread,
    harg6.read_unread, harg7.read_unread, View.ld_unit_zero (S := S256x32) hz2]
  rfl

end Pieces

section Value
open Cert.KernelIdeal.NormBlock

theorem overRows_apply (v : Vec Ideal S1x64 .f32) (r : Fin 256) (d : Fin 64) :
    overRows (F := Ideal) v (ix2 r d) = v (ix2 (0 : Fin 1) d) := by
  show broadcastTo S256x64 (shapeCast S1x64 (shapeCast S64 v shapeCasts_S1x64_S64) shapeCasts_S64_S1x64) broadcasts_S1x64_S256x64 (ix2 r d) = _
  rw [rowBroadcast_apply, vecRow_apply, rowVec_apply]

theorem chanRect_idx (f : Fin 32) (d : Fin 64) : (chanRect f.val f.isLt).idx (ix2 (0 : Fin 1) d) = ix2 f d := by
  funext a; apply Fin.ext
  match a with
  | ⟨0, _⟩ => show f.val + 1 * 0 = f.val; omega
  | ⟨1, _⟩ => show 0 + 1 * d.val = d.val; omega

theorem tabRect_idx (f : Fin 32) (k : Fin 1001) (d : Fin 64) : (tabRect f.val f.isLt).idx (ix3 (0 : Fin 1) k d) = ix3 f k d := by
  funext a; apply Fin.ext
  match a with
  | ⟨0, _⟩ => show f.val + 1 * 0 = f.val; omega
  | ⟨1, _⟩ => show 0 + 1 * k.val = k.val; omega
  | ⟨2, _⟩ => show 0 + 1 * d.val = d.val; omega

theorem featVal_apply (f : Fin 32) (hs : S256x32.Slices ![0, f.val] S256x1) (x : IVec S256x32 32) (tb : S32x1001x64.Idx → EReal)
    (mu sc ga be : S32x64.Idx → EReal) (r : Fin 256) (d : Fin 64) :
    featVal (F := Ideal) f.val f.isLt hs x tb mu sc ga be (ix2 r d) = normedAt x tb mu sc ga be r f d := by
  unfold featVal
  rw [maximumf_apply, addf_apply, mulf_apply, mulf_apply, subf_apply, broadcast_apply, selRows_apply f hs, overRows_apply,
    overRows_apply, overRows_apply, overRows_apply, table_apply]
  show max ((tb ((tabRect f.val f.isLt).idx (ix3 (0 : Fin 1) (Cert.EmbNorm.rowOf (x (ix2 r f))) d)) - mu ((chanRect f.val f.isLt).idx (ix2 (0 : Fin 1) d)))
      * sc ((chanRect f.val f.isLt).idx (ix2 (0 : Fin 1) d)) * ga ((chanRect f.val f.isLt).idx (ix2 (0 : Fin 1) d))
      + be ((chanRect f.val f.isLt).idx (ix2 (0 : Fin 1) d))) (FloatOps.ofBits (F := Ideal) FTy.f32 0#32) = _
  rw [tabRect_idx, chanRect_idx]
  rfl

theorem blockAt_lt (x : IVec S256x32 32) (tb : S32x1001x64.Idx → EReal) (mu sc ga be : S32x64.Idx → EReal) (num : S256x16.Idx → EReal)
    (r : Fin 256) (j : Fin 2064) (h : j.val < 2048) :
    blockAt x tb mu sc ga be num r j = normedAt x tb mu sc ga be r ⟨j.val / 64, by omega⟩ ⟨j.val % 64, Nat.mod_lt _ (by decide)⟩ :=
  dif_pos h

theorem blockAt_ge (x : IVec S256x32 32) (tb : S32x1001x64.Idx → EReal) (mu sc ga be : S32x64.Idx → EReal) (num : S256x16.Idx → EReal)
    (r : Fin 256) (j : Fin 2064) (h : ¬j.val < 2048) :
    blockAt x tb mu sc ga be num r j = num (ix2 r ⟨j.val - 2048, by have := j.isLt; omega⟩) :=
  dif_neg h

theorem colRect_emb (off w : ℕ) (hoff : off + w ≤ 2064) (inb : ∀ a, (![0, off] : Fin 2 → ℕ) a + (![256, w] : Fin 2 → ℕ) a ≤ S256x2064.size a)
    (r : Fin 256) (j : Fin w) :
    (Rect.unit (s := S256x2064) ![0, off] ![256, w] inb).emb (ix2 r j) = ix2 r (⟨off + j.val, by have := j.isLt; omega⟩ : Fin 2064) := by
  funext a; apply Fin.ext
  match a with
  | ⟨0, _⟩ => show 0 + 1 * r.val = r.val; omega
  | ⟨1, _⟩ => show off + 1 * j.val = off + j.val; omega

theorem pairPiece_spec (off f0 f1 : ℕ) (hoff : off + 128 ≤ 2064) (h0 : f0 < 32) (h1 : f1 < 32) (e0 : off = 64 * f0) (e1 : f1 = f0 + 1)
    (x : IVec S256x32 32) (tb : S32x1001x64.Idx → EReal) (mu sc ga be : S32x64.Idx → EReal) (num : S256x16.Idx → EReal) :
    ∀ y : S256x128.Idx, (pairPiece (F := Ideal) off f0 f1 hoff h0 h1 x tb mu sc ga be).2 y
      = blockVal x tb mu sc ga be num ((pairPiece (F := Ideal) off f0 f1 hoff h0 h1 x tb mu sc ga be).1.emb y) := by
  intro y
  obtain ⟨r, j, rfl⟩ : ∃ (r : Fin 256) (j : Fin 128), y = ix2 r j := ⟨y 0, y 1, eq_ix2 y⟩
  unfold pairPiece
  dsimp only
  rw [colRect_emb off 128 hoff _ r j, blockVal_ix2, blockAt_lt x tb mu sc ga be num r _ (by show off + j.val < 2048; omega)]
  by_cases hj : j.val < 64
  · rw [concat_left_apply _ _ r j hj]
    refine (featVal_apply ⟨f0, h0⟩ _ x tb mu sc ga be r ⟨j.val, hj⟩).trans ?_
    exact congrArg₂ (normedAt x tb mu sc ga be r) (Fin.ext (by show f0 = (off + j.val) / 64; omega))
      (Fin.ext (by show j.val = (off + j.val) % 64; omega))
  · rw [concat_right_apply _ _ r j (by omega)]
    refine (featVal_apply ⟨f1, h1⟩ _ x tb mu sc ga be r ⟨j.val - 64, by have := j.isLt; omega⟩).trans ?_
    exact congrArg₂ (normedAt x tb mu sc ga be r) (Fin.ext (by show f1 = (off + j.val) / 64; have := j.isLt; omega))
      (Fin.ext (by show j.val - 64 = (off + j.val) % 64; have := j.isLt; omega))

theorem numPiece_spec (x : IVec S256x32 32) (tb : S32x1001x64.Idx → EReal) (mu sc ga be : S32x64.Idx → EReal) (num : S256x16.Idx → EReal) :
    ∀ y : S256x16.Idx, (numPiece (F := Ideal) num).2 y = blockVal x tb mu sc ga be num ((numPiece (F := Ideal) num).1.emb y) := by
  intro y
  obtain ⟨r, j, rfl⟩ : ∃ (r : Fin 256) (j : Fin 16), y = ix2 r j := ⟨y 0, y 1, eq_ix2 y⟩
  unfold numPiece
  dsimp only
  rw [colRect_emb 2048 16 (by omega) _ r j, blockVal_ix2, blockAt_ge x tb mu sc ga be num r _ (by show ¬2048 + j.val < 2048; omega)]
  refine congrArg num (funext fun a => Fin.ext ?_)
  match a with
  | ⟨0, _⟩ => show 0 + 1 * r.val = r.val; omega
  | ⟨1, _⟩ => show 0 + 1 * j.val = 2048 + j.val - 2048; omega

set_option maxHeartbeats 2000000 in
theorem block_value (V : (c : Dev nD) → (b : Ref sig .tc) → Buf (Elt Ideal) ((c : Thread nD τ).loc b)) (c : Dev nD) (t : Fin cfg1.N)
    (y : S256x2064.Idx) : (dat1 V c).after 7 t y = blockVal (iblk1 V c 0 t) (iblk1 V c 1 t) (iblk1 V c 2 t) (iblk1 V c 3 t) (iblk1 V c 4 t) (iblk1 V c 5 t) (iblk1 V c 6 t) y := by
  rw [after1_7]
  refine View.canon_apply_of_pieces _ _ ?_ y (View.cover_of_tiledBy _ ![256, 16] (by sl_kernel_rfl) y)
  unfold run1
  rw [pieces_eq]
  intro p hp
  unfold pieceList at hp
  simp only [List.mem_cons, List.not_mem_nil, or_false] at hp
  rcases hp with rfl | rfl | rfl | rfl | rfl | rfl | rfl | rfl | rfl | rfl | rfl | rfl | rfl | rfl | rfl | rfl | rfl
  · exact numPiece_spec _ _ _ _ _ _ _
  · exact pairPiece_spec 1920 30 31 _ _ _ rfl rfl _ _ _ _ _ _ _
  · exact pairPiece_spec 1792 28 29 _ _ _ rfl rfl _ _ _ _ _ _ _
  · exact pairPiece_spec 1664 26 27 _ _ _ rfl rfl _ _ _ _ _ _ _
  · exact pairPiece_spec 1536 24 25 _ _ _ rfl rfl _ _ _ _ _ _ _
  · exact pairPiece_spec 1408 22 23 _ _ _ rfl rfl _ _ _ _ _ _ _
  · exact pairPiece_spec 1280 20 21 _ _ _ rfl rfl _ _ _ _ _ _ _
  · exact pairPiece_spec 1152 18 19 _ _ _ rfl rfl _ _ _ _ _ _ _
  · exact pairPiece_spec 1024 16 17 _ _ _ rfl rfl _ _ _ _ _ _ _
  · exact pairPiece_spec 896 14 15 _ _ _ rfl rfl _ _ _ _ _ _ _
  · exact pairPiece_spec 768 12 13 _ _ _ rfl rfl _ _ _ _ _ _ _
  · exact pairPiece_spec 640 10 11 _ _ _ rfl rfl _ _ _ _ _ _ _
  · exact pairPiece_spec 512 8 9 _ _ _ rfl rfl _ _ _ _ _ _ _
  · exact pairPiece_spec 384 6 7 _ _ _ rfl rfl _ _ _ _ _ _ _
  · exact pairPiece_spec 256 4 5 _ _ _ rfl rfl _ _ _ _ _ _ _
  · exact pairPiece_spec 128 2 3 _ _ _ rfl rfl _ _ _ _ _ _ _
  · exact pairPiece_spec 0 0 1 _ _ _ rfl rfl _ _ _ _ _ _ _

end Value

theorem out_value (V : (c : Dev nD) → (b : Ref sig .tc) → Buf (Elt Ideal) ((c : Thread nD τ).loc b)) (c : Dev nD) :
    (dat1 V c).arrAt 7 cfg1.N = Cert.EmbNorm.outWith (V c main_arg0) (V c main_arg1) (V c main_arg2) (V c main_v2) (V c main_v11) (V c main_arg3) (V c main_arg4) :=
  NormArray.out_value_of V c (block_value V c)

end Cert.KernelIdeal.NormValue

end
-- ==== Proof.HostStats.lean ====
import proofs.«413776_j39324720562872_4_alg».proof.Proof.Spec
import proofs.«413776_j39324720562872_4_alg».proof.Proof.Gen.KernelIdeal.Launch
import Idealize.ShloMosaic.Lib.StableHlo.Run

noncomputable section

namespace Cert.KernelIdeal.HostStats

open Idealize.ShloMosaic
open Cert.KernelIdeal Cert.KernelIdeal.Gen

theorem mean_value (W : Valuation τ sig (Elt Ideal)) (tbl : Cert.EmbNorm.STab.Idx → EReal) (idx : IVec Cert.EmbNorm.SIdx 32)
    (h0 : W (Proc.devRef .tc main_v0_0) = fun j => Cert.EmbNorm.total tbl idx (j 0) (j 1)) :
    StableHlo.after (hostOps1 (F := Ideal)) W (Proc.devRef .tc main_v2) = fun j => Cert.EmbNorm.mean tbl idx (j 0) (j 1) := by
  show StableHlo.after hostOps1 _ (Proc.devRef .tc main_v2) = _

  after_results
  rw [h0]

  funext j
  rfl

theorem scale_value (W : Valuation τ sig (Elt Ideal)) (tbl : Cert.EmbNorm.STab.Idx → EReal) (idx : IVec Cert.EmbNorm.SIdx 32)
    (h0 : W (Proc.devRef .tc main_v0_0) = fun j => Cert.EmbNorm.total tbl idx (j 0) (j 1))
    (h1 : W (Proc.devRef .tc main_v0_1) = fun j => Cert.EmbNorm.totalSq tbl idx (j 0) (j 1)) :
    StableHlo.after (hostOps1 (F := Ideal)) W (Proc.devRef .tc main_v11) = fun j => Cert.EmbNorm.scale tbl idx (j 0) (j 1) := by
  show StableHlo.after hostOps1 _ (Proc.devRef .tc main_v11) = _
  after_results
  rw [h0, h1]

  funext j
  rfl

end Cert.KernelIdeal.HostStats

end
-- ==== Proof.Bridge.lean ====
import proofs.«413776_j39324720562872_4_alg».proof.Proof.Spec
import proofs.«413776_j39324720562872_4_alg».proof.Proof.Run
import proofs.«413776_j39324720562872_4_alg».proof.Proof.StatsValue
import proofs.«413776_j39324720562872_4_alg».proof.Proof.NormValue
import proofs.«413776_j39324720562872_4_alg».proof.Proof.HostStats

noncomputable section

namespace Cert.KernelIdeal.Bridge

open Idealize.ShloMosaic Idealize.ShloMosaic.TcCoe
open Cert.KernelIdeal Cert.KernelIdeal.Gen

theorem kernel_out
    (m : (ℓ : Loc nD τ sig) → Buf (Elt Ideal) ℓ) (ρ : Dev nD → PrngReg) (c : Dev nD) :
    (NormRegion.dat1 (Run.V2 m ρ) c).arrAt 7 cfg1.N
      = Cert.EmbNorm.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by

  have h0 : Run.W1 m ρ c (Proc.devRef .tc main_v0_0)
      = fun j => Cert.EmbNorm.total (m ((c.tc : Thread nD τ).loc main_arg2)) (m ((c.tc : Thread nD τ).loc main_arg0)) (j 0) (j 1) :=
    (Run.W1_arr m ρ c 2).trans (StatsValue.sum_value (Run.V0 m ρ) c)
  have h1 : Run.W1 m ρ c (Proc.devRef .tc main_v0_1)
      = fun j => Cert.EmbNorm.totalSq (m ((c.tc : Thread nD τ).loc main_arg2)) (m ((c.tc : Thread nD τ).loc main_arg0)) (j 0) (j 1) :=
    (Run.W1_arr m ρ c 3).trans (StatsValue.sumsq_value (Run.V0 m ρ) c)

  have hmu : Run.V2 m ρ c main_v2
      = fun j => Cert.EmbNorm.mean (m ((c.tc : Thread nD τ).loc main_arg2)) (m ((c.tc : Thread nD τ).loc main_arg0)) (j 0) (j 1) :=
    HostStats.mean_value (Run.W1 m ρ c) _ _ h0
  have hsc : Run.V2 m ρ c main_v11
      = fun j => Cert.EmbNorm.scale (m ((c.tc : Thread nD τ).loc main_arg2)) (m ((c.tc : Thread nD τ).loc main_arg0)) (j 0) (j 1) :=
    HostStats.scale_value (Run.W1 m ρ c) _ _ h0 h1

  rw [NormValue.out_value (Run.V2 m ρ) c, hmu, hsc, Run.V2_main_arg0, Run.V2_main_arg1, Run.V2_main_arg2, Run.V2_main_arg3,
    Run.V2_main_arg4]
  exact (Cert.EmbNorm.out_eq_outWith _ _ _ _ _).symm

end Cert.KernelIdeal.Bridge

end
-- ==== Proof.RefTerm.lean ====
import proofs.«413776_j39324720562872_4_alg».proof.ReferenceIdeal
import proofs.«413776_j39324720562872_4_alg».proof.Proof.Gen.ReferenceIdeal

noncomputable section

namespace Cert.ReferenceIdeal.Hand

open Cert.ReferenceIdeal Idealize.ShloMosaic
open Cert.ReferenceIdeal.Facts₀ Cert.ReferenceIdeal.Facts

variable {F : FTy → Type} [FloatOps F]

def featIota : IVec S1x32 32 :=
  broadcastInDim S1x32 ![1] bcast_S32_S1x32_1 (iotaInDim S32 32 0)

def featWrapped : IVec S1x32 32 :=
  select (cmpi .slt featIota (broadcastInDim S1x32 ![] bcast_S_S1x32 (constantI S_ 32 0#32)))
    (addi featIota (broadcastInDim S1x32 ![] bcast_S_S1x32 (constantI S_ 32 32#32)))
    featIota

def rowWrapped (a0 : IVec S65536x32 32) : IVec S65536x32 32 :=
  select (cmpi .slt a0 (broadcastInDim S65536x32 ![] bcast_S_S65536x32 (constantI S_ 32 0#32)))
    (addi a0 (broadcastInDim S65536x32 ![] bcast_S_S65536x32 (constantI S_ 32 1001#32)))
    a0

def starts (a0 : IVec S65536x32 32) : IVec S65536x32x2 32 :=
  concatenate S65536x32x2 2
    [⟨S65536x32x1, broadcastInDim S65536x32x1 ![0, 1] bcast_S65536x32_S65536x32x1_0_1
        (broadcastInDim S65536x32 ![0, 1] bcast_S1x32_S65536x32_0_1 featWrapped)⟩,
     ⟨S65536x32x1, broadcastInDim S65536x32x1 ![0, 1] bcast_S65536x32_S65536x32x1_0_1 (rowWrapped a0)⟩]
    concatenates_S65536x32x1_S65536x32x1_S65536x32x2_d2

def gathered (a0 : IVec S65536x32 32) (a2 : FVec F S32x1001x64 .f32) : FVec F S65536x32x64 .f32 :=
  Host.gather gather_S32x1001x64_S65536x32x2_S65536x32x64_2_01_n_n_01_2_1164 a2 (starts a0)

def bmean (e : FVec F S65536x32x64 .f32) : FVec F S32x64 .f32 :=
  Host.divf (Host.reduceAdd e (constant (F := F) S_ .f32 0x00000000#32) reducesTo_S65536x32x64_S32x64_d0 h_S_)
    (broadcastInDim S32x64 ![] bcast_S_S32x64 (constant (F := F) S_ .f32 0x47800000#32))

def centred (e : FVec F S65536x32x64 .f32) : FVec F S65536x32x64 .f32 :=
  subf e (broadcastInDim S65536x32x64 ![0, 1, 2] bcast_S1x32x64_S65536x32x64_0_1_2
    (Host.divf
      (broadcastInDim S1x32x64 ![1, 2] bcast_S32x64_S1x32x64_1_2
        (Host.reduceAdd e (constant (F := F) S_ .f32 0x00000000#32) reducesTo_S65536x32x64_S32x64_d0 h_S_))
      (broadcastInDim S1x32x64 ![] bcast_S_S1x32x64 (constant (F := F) S_ .f32 0x47800000#32))))

def dofDivisor : FVec F S_ .f32 :=
  subf (constant (F := F) S_ .f32 0x47800000#32) (sitofp (F := F) .f32 (constantI S_ 32 0#32))

def bvar (e : FVec F S65536x32x64 .f32) : FVec F S32x64 .f32 :=
  select
    (broadcastInDim S32x64 ![] bcast_S_S32x64
      (cmpf (F := F) .ogt (dofDivisor (F := F)) (constant (F := F) S_ .f32 0x00000000#32)))
    (Host.divf
      (Host.reduceAdd (mulf (centred e) (centred e)) (constant (F := F) S_ .f32 0x00000000#32)
        reducesTo_S65536x32x64_S32x64_d0 h_S_)
      (broadcastInDim S32x64 ![] bcast_S_S32x64 (dofDivisor (F := F))))
    (broadcastInDim S32x64 ![] bcast_S_S32x64 (id (constant (F := F) S_ .f32 0x7FC00000#32)))

def overBatch (x : FVec F S32x64 .f32) : FVec F S65536x32x64 .f32 :=
  broadcastInDim S65536x32x64 ![0, 1, 2] bcast_S1x32x64_S65536x32x64_0_1_2
    (broadcastInDim S1x32x64 ![1, 2] bcast_S32x64_S1x32x64_1_2 x)

def normalized (e : FVec F S65536x32x64 .f32) (mu v a3 a4 : FVec F S32x64 .f32) : FVec F S65536x32x64 .f32 :=
  maximumf
    (addf
      (mulf
        (mulf (subf e (overBatch mu))
          (overBatch (Host.rsqrt (addf v (broadcastInDim S32x64 ![] bcast_S_S32x64 (constant (F := F) S_ .f32 0x3727C5AC#32))))))
        (overBatch a3))
      (overBatch a4))
    (broadcastInDim S65536x32x64 ![] bcast_S_S65536x32x64 (constant (F := F) S_ .f32 0x00000000#32))

def refOut (a0 : IVec S65536x32 32) (a1 : FVec F S65536x16 .f32) (a2 : FVec F S32x1001x64 .f32)
    (a3 a4 : FVec F S32x64 .f32) : FVec F S65536x2064 .f32 :=
  concatenate S65536x2064 1
    [⟨S65536x2048, shapeCast S65536x2048
        (normalized (gathered a0 a2) (bmean (gathered a0 a2)) (bvar (gathered a0 a2)) a3 a4)
        shapeCasts_S65536x32x64_S65536x2048⟩,
     ⟨S65536x16, a1⟩]
    concatenates_S65536x2048_S65536x16_S65536x2064_d1

end Cert.ReferenceIdeal.Hand

end
-- ==== Proof.RefRunOps.lean ====
import proofs.«413776_j39324720562872_4_alg».proof.ReferenceIdeal
import proofs.«413776_j39324720562872_4_alg».proof.Proof.Gen.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

abbrev opsA : List (HloOp τ sig (Elt F)) :=
  [ StableHlo.nullary main_v0 (iotaInDim S32 32 0),
    StableHlo.unary main_v0 main_v1 (broadcastInDim S1x32 ![1] bcast_S32_S1x32_1 : (⟨S32, .i32⟩ : BufTy).Contents (Elt F) → (⟨S1x32, .i32⟩ : BufTy).Contents (Elt F)),
    StableHlo.nullary main_c (constantI S_ 32 0#32),
    StableHlo.unary main_c main_v2 (broadcastInDim S1x32 ![] bcast_S_S1x32 : (⟨S_, .i32⟩ : BufTy).Contents (Elt F) → (⟨S1x32, .i32⟩ : BufTy).Contents (Elt F)),
    StableHlo.binary main_v1 main_v2 main_v3 (cmpi .slt : (⟨S1x32, .i32⟩ : BufTy).Contents (Elt F) → (⟨S1x32, .i32⟩ : BufTy).Contents (Elt F) → (⟨S1x32, .i1⟩ : BufTy).Contents (Elt F)),
    StableHlo.nullary main_c_0 (constantI S_ 32 32#32),
    StableHlo.unary main_c_0 main_v4 (broadcastInDim S1x32 ![] bcast_S_S1x32 : (⟨S_, .i32⟩ : BufTy).Contents (Elt F) → (⟨S1x32, .i32⟩ : BufTy).Contents (Elt F)),
    StableHlo.binary main_v1 main_v4 main_v5 (addi : (⟨S1x32, .i32⟩ : BufTy).Contents (Elt F) → (⟨S1x32, .i32⟩ : BufTy).Contents (Elt F) → (⟨S1x32, .i32⟩ : BufTy).Contents (Elt F)),
    StableHlo.ternary main_v3 main_v5 main_v1 main_v6 (select : (⟨S1x32, .i1⟩ : BufTy).Contents (Elt F) → (⟨S1x32, .i32⟩ : BufTy).Contents (Elt F) → (⟨S1x32, .i32⟩ : BufTy).Contents (Elt F) → (⟨S1x32, .i32⟩ : BufTy).Contents (Elt F)),
    StableHlo.nullary main_c_1 (constantI S_ 32 0#32),
    StableHlo.unary main_c_1 main_v7 (broadcastInDim S65536x32 ![] bcast_S_S65536x32 : (⟨S_, .i32⟩ : BufTy).Contents (Elt F) → (⟨S65536x32, .i32⟩ : BufTy).Contents (Elt F)),
    StableHlo.binary main_arg0 main_v7 main_v8 (cmpi .slt : (⟨S65536x32, .i32⟩ : BufTy).Contents (Elt F) → (⟨S65536x32, .i32⟩ : BufTy).Contents (Elt F) → (⟨S65536x32, .i1⟩ : BufTy).Contents (Elt F)),
    StableHlo.nullary main_c_2 (constantI S_ 32 1001#32),
    StableHlo.unary main_c_2 main_v9 (broadcastInDim S65536x32 ![] bcast_S_S65536x32 : (⟨S_, .i32⟩ : BufTy).Contents (Elt F) → (⟨S65536x32, .i32⟩ : BufTy).Contents (Elt F)),
    StableHlo.binary main_arg0 main_v9 main_v10 (addi : (⟨S65536x32, .i32⟩ : BufTy).Contents (Elt F) → (⟨S65536x32, .i32⟩ : BufTy).Contents (Elt F) → (⟨S65536x32, .i32⟩ : BufTy).Contents (Elt F)),
    StableHlo.ternary main_v8 main_v10 main_arg0 main_v11 (select : (⟨S65536x32, .i1⟩ : BufTy).Contents (Elt F) → (⟨S65536x32, .i32⟩ : BufTy).Contents (Elt F) → (⟨S65536x32, .i32⟩ : BufTy).Contents (Elt F) → (⟨S65536x32, .i32⟩ : BufTy).Contents (Elt F)),
    StableHlo.unary main_v6 main_v12 (broadcastInDim S65536x32 ![0, 1] bcast_S1x32_S65536x32_0_1 : (⟨S1x32, .i32⟩ : BufTy).Contents (Elt F) → (⟨S65536x32, .i32⟩ : BufTy).Contents (Elt F)),
    StableHlo.unary main_v12 main_v13 (broadcastInDim S65536x32x1 ![0, 1] bcast_S65536x32_S65536x32x1_0_1 : (⟨S65536x32, .i32⟩ : BufTy).Contents (Elt F) → (⟨S65536x32x1, .i32⟩ : BufTy).Contents (Elt F)),
    StableHlo.unary main_v11 main_v14 (broadcastInDim S65536x32x1 ![0, 1] bcast_S65536x32_S65536x32x1_0_1 : (⟨S65536x32, .i32⟩ : BufTy).Contents (Elt F) → (⟨S65536x32x1, .i32⟩ : BufTy).Contents (Elt F)) ]

abbrev opsB : List (HloOp τ sig (Elt F)) :=
  [ StableHlo.binary main_v13 main_v14 main_v15 ((fun a b => concatenate S65536x32x2 2 [⟨S65536x32x1, a⟩, ⟨S65536x32x1, b⟩] concatenates_S65536x32x1_S65536x32x1_S65536x32x2_d2) : (⟨S65536x32x1, .i32⟩ : BufTy).Contents (Elt F) → (⟨S65536x32x1, .i32⟩ : BufTy).Contents (Elt F) → (⟨S65536x32x2, .i32⟩ : BufTy).Contents (Elt F)),
    StableHlo.binary main_arg2 main_v15 main_v16 ((fun x i => Host.gather gather_S32x1001x64_S65536x32x2_S65536x32x64_2_01_n_n_01_2_1164 x i) : (⟨S32x1001x64, .f32⟩ : BufTy).Contents (Elt F) → (⟨S65536x32x2, .i32⟩ : BufTy).Contents (Elt F) → (⟨S65536x32x64, .f32⟩ : BufTy).Contents (Elt F)),
    StableHlo.nullary main_cst (constant S_ .f32 0x00000000#32),
    StableHlo.binary main_v16 main_cst main_v17 ((fun x v => Host.reduceAdd x v reducesTo_S65536x32x64_S32x64_d0 h_S_) : (⟨S65536x32x64, .f32⟩ : BufTy).Contents (Elt F) → (⟨S_, .f32⟩ : BufTy).Contents (Elt F) → (⟨S32x64, .f32⟩ : BufTy).Contents (Elt F)),
    StableHlo.nullary main_cst_3 (constant S_ .f32 0x47800000#32),
    StableHlo.unary main_cst_3 main_v18 (broadcastInDim S32x64 ![] bcast_S_S32x64 : (⟨S_, .f32⟩ : BufTy).Contents (Elt F) → (⟨S32x64, .f32⟩ : BufTy).Contents (Elt F)),
    StableHlo.binary main_v17 main_v18 main_v19 (Host.divf : (⟨S32x64, .f32⟩ : BufTy).Contents (Elt F) → (⟨S32x64, .f32⟩ : BufTy).Contents (Elt F) → (⟨S32x64, .f32⟩ : BufTy).Contents (Elt F)),
    StableHlo.nullary main_c_4 (constantI S_ 32 0#32),
    StableHlo.TRef.nullary main_call0.cst (constant S_ .f32 0x00000000#32),
    StableHlo.TRef.binary (.of main_v16 : StableHlo.TRef sig ⟨S65536x32x64, .f32⟩) main_call0.cst main_call0.v0 (fun x v => Host.reduceAdd x v reducesTo_S65536x32x64_S32x64_d0 h_S_),
    StableHlo.TRef.unary main_call0.v0 main_call0.v1 (broadcastInDim S1x32x64 ![1, 2] bcast_S32x64_S1x32x64_1_2),
    StableHlo.TRef.nullary main_call0.cst_0 (constant S_ .f32 0x47800000#32),
    StableHlo.TRef.unary main_call0.cst_0 main_call0.v2 (broadcastInDim S1x32x64 ![] bcast_S_S1x32x64),
    StableHlo.TRef.binary main_call0.v1 main_call0.v2 main_call0.v3 Host.divf,
    StableHlo.TRef.unary main_call0.v3 main_call0.v4 (broadcastInDim S65536x32x64 ![0, 1, 2] bcast_S1x32x64_S65536x32x64_0_1_2),
    StableHlo.TRef.binary (.of main_v16 : StableHlo.TRef sig ⟨S65536x32x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x32x64_S32x64_d0 h_S_),
    StableHlo.TRef.unary main_call0.v8 main_call0.v10 (broadcastInDim S32x64 ![] bcast_S_S32x64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x64 ![] bcast_S_S32x64),
    StableHlo.TRef.ternary main_call0.v12 main_call0.v11 main_call0.call0.v1 main_call0.call0.v2 (fun p a b => select (broadcastInDim S32x64 ![] bcast_S_S32x64 p) a b) ]

abbrev opsC : List (HloOp τ sig (Elt F)) :=
  [ StableHlo.unary main_v19 main_v21 (broadcastInDim S1x32x64 ![1, 2] bcast_S32x64_S1x32x64_1_2 : (⟨S32x64, .f32⟩ : BufTy).Contents (Elt F) → (⟨S1x32x64, .f32⟩ : BufTy).Contents (Elt F)),
    StableHlo.unary main_v21 main_v22 (broadcastInDim S65536x32x64 ![0, 1, 2] bcast_S1x32x64_S65536x32x64_0_1_2 : (⟨S1x32x64, .f32⟩ : BufTy).Contents (Elt F) → (⟨S65536x32x64, .f32⟩ : BufTy).Contents (Elt F)),
    StableHlo.binary main_v16 main_v22 main_v23 (subf : (⟨S65536x32x64, .f32⟩ : BufTy).Contents (Elt F) → (⟨S65536x32x64, .f32⟩ : BufTy).Contents (Elt F) → (⟨S65536x32x64, .f32⟩ : BufTy).Contents (Elt F)),
    StableHlo.nullary main_cst_5 (constant S_ .f32 0x3727C5AC#32),
    StableHlo.unary main_cst_5 main_v24 (broadcastInDim S32x64 ![] bcast_S_S32x64 : (⟨S_, .f32⟩ : BufTy).Contents (Elt F) → (⟨S32x64, .f32⟩ : BufTy).Contents (Elt F)),
    StableHlo.binary main_v20 main_v24 main_v25 (addf : (⟨S32x64, .f32⟩ : BufTy).Contents (Elt F) → (⟨S32x64, .f32⟩ : BufTy).Contents (Elt F) → (⟨S32x64, .f32⟩ : BufTy).Contents (Elt F)),
    StableHlo.unary main_v25 main_v26 (Host.rsqrt : (⟨S32x64, .f32⟩ : BufTy).Contents (Elt F) → (⟨S32x64, .f32⟩ : BufTy).Contents (Elt F)),
    StableHlo.unary main_v26 main_v27 (broadcastInDim S1x32x64 ![1, 2] bcast_S32x64_S1x32x64_1_2 : (⟨S32x64, .f32⟩ : BufTy).Contents (Elt F) → (⟨S1x32x64, .f32⟩ : BufTy).Contents (Elt F)),
    StableHlo.unary main_v27 main_v28 (broadcastInDim S65536x32x64 ![0, 1, 2] bcast_S1x32x64_S65536x32x64_0_1_2 : (⟨S1x32x64, .f32⟩ : BufTy).Contents (Elt F) → (⟨S65536x32x64, .f32⟩ : BufTy).Contents (Elt F)),
    StableHlo.binary main_v23 main_v28 main_v29 (mulf : (⟨S65536x32x64, .f32⟩ : BufTy).Contents (Elt F) → (⟨S65536x32x64, .f32⟩ : BufTy).Contents (Elt F) → (⟨S65536x32x64, .f32⟩ : BufTy).Contents (Elt F)),
    StableHlo.unary main_arg3 main_v30 (broadcastInDim S1x32x64 ![1, 2] bcast_S32x64_S1x32x64_1_2 : (⟨S32x64, .f32⟩ : BufTy).Contents (Elt F) → (⟨S1x32x64, .f32⟩ : BufTy).Contents (Elt F)),
    StableHlo.unary main_v30 main_v31 (broadcastInDim S65536x32x64 ![0, 1, 2] bcast_S1x32x64_S65536x32x64_0_1_2 : (⟨S1x32x64, .f32⟩ : BufTy).Contents (Elt F) → (⟨S65536x32x64, .f32⟩ : BufTy).Contents (Elt F)),
    StableHlo.binary main_v29 main_v31 main_v32 (mulf : (⟨S65536x32x64, .f32⟩ : BufTy).Contents (Elt F) → (⟨S65536x32x64, .f32⟩ : BufTy).Contents (Elt F) → (⟨S65536x32x64, .f32⟩ : BufTy).Contents (Elt F)),
    StableHlo.unary main_arg4 main_v33 (broadcastInDim S1x32x64 ![1, 2] bcast_S32x64_S1x32x64_1_2 : (⟨S32x64, .f32⟩ : BufTy).Contents (Elt F) → (⟨S1x32x64, .f32⟩ : BufTy).Contents (Elt F)),
    StableHlo.unary main_v33 main_v34 (broadcastInDim S65536x32x64 ![0, 1, 2] bcast_S1x32x64_S65536x32x64_0_1_2 : (⟨S1x32x64, .f32⟩ : BufTy).Contents (Elt F) → (⟨S65536x32x64, .f32⟩ : BufTy).Contents (Elt F)),
    StableHlo.binary main_v32 main_v34 main_v35 (addf : (⟨S65536x32x64, .f32⟩ : BufTy).Contents (Elt F) → (⟨S65536x32x64, .f32⟩ : BufTy).Contents (Elt F) → (⟨S65536x32x64, .f32⟩ : BufTy).Contents (Elt F)),
    StableHlo.TRef.nullary main_call1.cst (constant S_ .f32 0x00000000#32),
    StableHlo.TRef.unary main_call1.cst main_call1.v0 (broadcastInDim S65536x32x64 ![] bcast_S_S65536x32x64),
    StableHlo.TRef.binary (.of main_v35 : StableHlo.TRef sig ⟨S65536x32x64, .f32⟩) main_call1.v0 main_call1.v1 maximumf,
    StableHlo.reshape main_v36 main_v37 rfl shapeCasts_S65536x32x64_S65536x2048 ]

abbrev opsD : List (HloOp τ sig (Elt F)) :=
  [ StableHlo.binary main_v37 main_arg1 main_v38 ((fun a b => concatenate S65536x2064 1 [⟨S65536x2048, a⟩, ⟨S65536x16, b⟩] concatenates_S65536x2048_S65536x16_S65536x2064_d1) : (⟨S65536x2048, .f32⟩ : BufTy).Contents (Elt F) → (⟨S65536x16, .f32⟩ : BufTy).Contents (Elt F) → (⟨S65536x2064, .f32⟩ : BufTy).Contents (Elt F)) ]

abbrev ops : List (HloOp τ sig (Elt F)) := opsA ++ opsB ++ opsC ++ opsD

set_option maxRecDepth 8192 in
set_option maxHeartbeats 4000000 in

theorem main_eq (c : Dev nD) : main (F := F) c = seq ops := by
  simp only [ops, seq_append, opsA, opsB, opsC, opsD]
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem opsB_sub : (opsB : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub ..⟩
theorem opsD_sub : (opsD : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsA_sub op h, List.forall_iff_forall_mem.mp opsB_sub op h,
      List.forall_iff_forall_mem.mp opsC_sub op h, List.forall_iff_forall_mem.mp opsD_sub op h]

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with ((h | h) | h) | h
  exacts [opsA_fresh op h, opsB_fresh op h, opsC_fresh op h, opsD_fresh op h]

end Cert.ReferenceIdeal.Hand

end
-- ==== Proof.RefRun.lean ====
import proofs.«413776_j39324720562872_4_alg».proof.Proof.RefTerm
import proofs.«413776_j39324720562872_4_alg».proof.Proof.RefRunOps
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

abbrev args : List (DevRef τ sig) := [main_arg0, main_arg1, main_arg2, main_arg3, main_arg4]

theorem valA_v13 (V : Valuation τ sig (Elt F)) :
    after opsA V (main_v13 : DevRef τ sig)
      = broadcastInDim S65536x32x1 ![0, 1] bcast_S65536x32_S65536x32x1_0_1
          (broadcastInDim S65536x32 ![0, 1] bcast_S1x32_S65536x32_0_1 featWrapped) := by
  after_results_simp <;> rfl

theorem valA_v14 (V : Valuation τ sig (Elt F)) :
    after opsA V (main_v14 : DevRef τ sig)
      = broadcastInDim S65536x32x1 ![0, 1] bcast_S65536x32_S65536x32x1_0_1 (rowWrapped (V (main_arg0 : DevRef τ sig))) := by
  after_results_simp <;> rfl

theorem valA_args (V : Valuation τ sig (Elt F)) : ∀ r ∈ args, after opsA V r = V r := by
  intro r hr
  simp only [args, List.mem_cons, List.mem_nil_iff, or_false] at hr
  rcases hr with rfl | rfl | rfl | rfl | rfl <;> after_results_simp

def gatherOf (W : Valuation τ sig (Elt F)) : FVec F S65536x32x64 .f32 :=
  Host.gather gather_S32x1001x64_S65536x32x2_S65536x32x64_2_01_n_n_01_2_1164 (W (main_arg2 : DevRef τ sig))
    (concatenate S65536x32x2 2 [⟨S65536x32x1, W (main_v13 : DevRef τ sig)⟩, ⟨S65536x32x1, W (main_v14 : DevRef τ sig)⟩]
      concatenates_S65536x32x1_S65536x32x1_S65536x32x2_d2)

attribute [local irreducible] Host.reduceAdd Host.gather concatenate broadcastInDim shapeCast in
theorem valB_v16 (W : Valuation τ sig (Elt F)) : after opsB W (main_v16 : DevRef τ sig) = gatherOf W := by
  after_results_simp <;> (try simp only [TRef.ofBuf, TRef.toBuf, cast_eq]) <;> rfl

attribute [local irreducible] Host.reduceAdd Host.gather concatenate broadcastInDim shapeCast in
theorem valB_v19 (W : Valuation τ sig (Elt F)) : after opsB W (main_v19 : DevRef τ sig) = bmean (gatherOf W) := by
  after_results_simp <;> (try simp only [TRef.ofBuf, TRef.toBuf, cast_eq]) <;> rfl

attribute [local irreducible] Host.reduceAdd Host.gather concatenate broadcastInDim shapeCast in
set_option maxRecDepth 8192 in
set_option maxHeartbeats 1000000 in
theorem valB_v20 (W : Valuation τ sig (Elt F)) : after opsB W (main_v20 : DevRef τ sig) = bvar (gatherOf W) := by
  after_results_simp <;> (try simp only [TRef.ofBuf, TRef.toBuf, cast_eq]) <;> rfl

theorem valB_args (V : Valuation τ sig (Elt F)) : ∀ r ∈ args, after opsB V r = V r := by
  intro r hr
  simp only [args, List.mem_cons, List.mem_nil_iff, or_false] at hr
  rcases hr with rfl | rfl | rfl | rfl | rfl <;> after_results_simp

attribute [local irreducible] Host.reduceAdd Host.gather concatenate broadcastInDim shapeCast in
set_option maxRecDepth 8192 in
set_option maxHeartbeats 1000000 in
theorem valC_v37 (X : Valuation τ sig (Elt F)) :
    after opsC X (main_v37 : DevRef τ sig)
      = shapeCast S65536x2048
          (normalized (X (main_v16 : DevRef τ sig)) (X (main_v19 : DevRef τ sig)) (X (main_v20 : DevRef τ sig)) (X (main_arg3 : DevRef τ sig)) (X (main_arg4 : DevRef τ sig)))
          shapeCasts_S65536x32x64_S65536x2048 := by
  after_results_simp <;> (try simp only [TRef.ofBuf, TRef.toBuf, cast_eq]) <;> rfl

theorem valC_args (V : Valuation τ sig (Elt F)) : ∀ r ∈ args, after opsC V r = V r := by
  intro r hr
  simp only [args, List.mem_cons, List.mem_nil_iff, or_false] at hr
  rcases hr with rfl | rfl | rfl | rfl | rfl <;> after_results_simp

attribute [local irreducible] Host.reduceAdd Host.gather concatenate broadcastInDim shapeCast in
theorem valD_v38 (Y : Valuation τ sig (Elt F)) :
    after opsD Y (main_v38 : DevRef τ sig)
      = concatenate S65536x2064 1 [⟨S65536x2048, Y (main_v37 : DevRef τ sig)⟩, ⟨S65536x16, Y (main_arg1 : DevRef τ sig)⟩]
          concatenates_S65536x2048_S65536x16_S65536x2064_d1 := by
  after_results_simp <;> (try simp only [TRef.ofBuf, TRef.toBuf, cast_eq]) <;> rfl

theorem valD_args (V : Valuation τ sig (Elt F)) : ∀ r ∈ args, after opsD V r = V r := by
  intro r hr
  simp only [args, List.mem_cons, List.mem_nil_iff, or_false] at hr
  rcases hr with rfl | rfl | rfl | rfl | rfl <;> after_results_simp

theorem after_v38 (V : Valuation τ sig (Elt F)) :
    after ops V (main_v38 : DevRef τ sig)
      = refOut (V (main_arg0 : DevRef τ sig)) (V (main_arg1 : DevRef τ sig)) (V (main_arg2 : DevRef τ sig)) (V (main_arg3 : DevRef τ sig)) (V (main_arg4 : DevRef τ sig)) := by
  simp only [ops, after_append]
  rw [valD_v38, valC_v37, valC_args _ main_arg1 (by simp), valB_v16, valB_v19, valB_v20, valB_args _ main_arg1 (by simp), valB_args _ main_arg3 (by simp), valB_args _ main_arg4 (by simp)]
  unfold gatherOf
  rw [valA_v13, valA_v14, valA_args _ main_arg1 (by simp), valA_args _ main_arg2 (by simp), valA_args _ main_arg3 (by simp), valA_args _ main_arg4 (by simp)]
  rfl

theorem after_args (V : Valuation τ sig (Elt F)) : ∀ r ∈ args, after ops V r = V r := fun r hr => by
  simp only [ops, after_append]
  rw [valD_args _ r hr, valC_args _ r hr, valB_args _ r hr, valA_args _ r hr]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v38) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v38).trans (after_v38 _),
      (h c main_arg0).trans (after_args _ _ (by simp)),
      (h c main_arg1).trans (after_args _ _ (by simp)),
      (h c main_arg2).trans (after_args _ _ (by simp)),
      (h c main_arg3).trans (after_args _ _ (by simp)),
      (h c main_arg4).trans (after_args _ _ (by simp))⟩)
    (run_seq scopedRefs_eq scopedSems_eq defs main (fun _ => ops) main_eq (fun _ => ops_sub) m ρ (fun _ => ops_fresh))

end Cert.ReferenceIdeal.Hand

end
-- ==== Proof.LibGatherPairs.lean ====
import Idealize.ShloMosaic.PureOps.ShapeOps
import Idealize.ShloMosaic.Lib.ValueIdx

namespace Cert.EmbNorm.Lib

open Idealize.ShloMosaic Idealize.ShloMosaic.ValueIdx

private theorem getElem_of_eq {β : Type} (l l' : List β) (hl : l = l') (k k' : Nat) (hk : k = k') (h : k < l.length)
    (h' : k' < l'.length) : l[k]'h = l'[k']'h' := by
  subst hl; subst hk; rfl

theorem gather_pairs {α : Type} {T N C B w : Nat} (d : GatherDims ⟨3, ![T, N, C]⟩ ⟨3, ![B, T, 2]⟩ ⟨3, ![B, T, C]⟩)
    (hoff : d.offsetDims = [2]) (hcoll : d.collapsedSliceDims = [0, 1]) (hob : d.operandBatchingDims = [])
    (hsim : d.startIndexMap = [0, 1]) (hivd : d.indexVectorDim = 2)
    (x : (⟨3, ![T, N, C]⟩ : Shape).Idx → α) (idx : IVec ⟨3, ![B, T, 2]⟩ w) (p : Fin B) (f : Fin T) (q : Fin C)
    (hT : 0 < T) (hN : 0 < N) :
    Host.gather d x idx (ix3 p f q)
      = x (ix3 (⟨min (idx (ix3 p f (0 : Fin 2))).toInt.toNat (T - 1), by omega⟩ : Fin T)
            (⟨min (idx (ix3 p f (1 : Fin 2))).toInt.toNat (N - 1), by omega⟩ : Fin N) q) := by

  have hb : ∀ a : Fin 3, a ∉ d.operandBatchingDims := fun a => by rw [hob]; exact List.not_mem_nil
  have hbd : d.batchDims = [(0 : Fin 3), (1 : Fin 3)] := by
    unfold GatherDims.batchDims Shape.kept
    rw [hoff]
    show List.filter (fun x : Fin 3 => decide (x ∉ [(2 : Fin 3)])) (List.finRange 3) = [(0 : Fin 3), (1 : Fin 3)]
    decide
  have hsk : d.siKept = [(0 : Fin 3), (1 : Fin 3)] := by
    unfold GatherDims.siKept
    rw [hivd]
    show List.filter (fun x : Fin 3 => decide (x.val ≠ 2)) (List.finRange 3) = [(0 : Fin 3), (1 : Fin 3)]
    decide

  have hsi : ∀ (c : Fin d.startIndexMap.length) (c' : Fin 2), c.val = c'.val →
      d.siIdx (ix3 p f q) c = ix3 p f c' := by
    intro c c' hc
    funext b
    match b with
    | ⟨0, _⟩ =>
      unfold GatherDims.siIdx
      rw [dif_neg (by rw [hivd]; simp)]
      unfold GatherDims.siCoord
      apply Fin.ext
      simp only [Fin.val_cast]
      rw [getElem_of_eq _ _ hbd _ 0 (by rw [hsk]; rfl) _ (Nat.zero_lt_succ _)]
      rfl
    | ⟨1, _⟩ =>
      unfold GatherDims.siIdx
      rw [dif_neg (by rw [hivd]; simp)]
      unfold GatherDims.siCoord
      apply Fin.ext
      simp only [Fin.val_cast]
      rw [getElem_of_eq _ _ hbd _ 1 (by rw [hsk]; rfl) _ (Nat.succ_lt_succ (Nat.zero_lt_succ _))]
      rfl
    | ⟨2, _⟩ =>
      unfold GatherDims.siIdx
      rw [dif_pos (by rw [hivd])]
      apply Fin.ext
      exact hc
  unfold Host.gather
  congr 1
  funext a
  apply Fin.ext
  match a with
  | ⟨0, _⟩ =>

    have hk : (0 : Fin 3) ∉ d.sKept := by rw [GatherDims.mem_sKept, hcoll]; simp
    have hm : (0 : Fin 3) ∈ d.startIndexMap := by rw [hsim]; simp
    have hsl : d.sliceSizes 0 = 1 := d.slice_collapsed 0 (by rw [hcoll]; simp)
    show (d.operandIdx (ix3 p f q) idx (0 : Fin 3)).val = _
    simp only [GatherDims.operandIdx, GatherDims.batchCoord_eq_zero _ _ _ (hb 0), GatherDims.offCoord_eq_zero _ _ _ hk,
      Nat.add_zero, GatherDims.start, dif_pos hm]
    show min (idx _).toInt.toNat (T - d.sliceSizes 0) = min (idx (ix3 p f (0 : Fin 2))).toInt.toNat (T - 1)
    rw [hsl, hsi _ (0 : Fin 2) (by show List.idxOf (0 : Fin 3) d.startIndexMap = 0; rw [hsim]; rfl)]
  | ⟨1, _⟩ =>

    have hk : (1 : Fin 3) ∉ d.sKept := by rw [GatherDims.mem_sKept, hcoll]; simp
    have hm : (1 : Fin 3) ∈ d.startIndexMap := by rw [hsim]; simp
    have hsl : d.sliceSizes 1 = 1 := d.slice_collapsed 1 (by rw [hcoll]; simp)
    show (d.operandIdx (ix3 p f q) idx (1 : Fin 3)).val = _
    simp only [GatherDims.operandIdx, GatherDims.batchCoord_eq_zero _ _ _ (hb 1), GatherDims.offCoord_eq_zero _ _ _ hk,
      Nat.add_zero, GatherDims.start, dif_pos hm]
    show min (idx _).toInt.toNat (N - d.sliceSizes 1) = min (idx (ix3 p f (1 : Fin 2))).toInt.toNat (N - 1)
    rw [hsl, hsi _ (1 : Fin 2) (by show List.idxOf (1 : Fin 3) d.startIndexMap = 1; rw [hsim]; rfl)]
  | ⟨2, _⟩ =>

    have h2 : (2 : Fin 3) ∉ [(0 : Fin 3), (1 : Fin 3)] := by decide
    have hk : (2 : Fin 3) ∈ d.sKept := by rw [GatherDims.mem_sKept, hcoll]; exact ⟨h2, hb 2⟩
    have hm : (2 : Fin 3) ∉ d.startIndexMap := by rw [hsim]; exact h2
    show (d.operandIdx (ix3 p f q) idx (2 : Fin 3)).val = q.val
    simp only [GatherDims.operandIdx, GatherDims.batchCoord_eq_zero _ _ _ (hb 2), GatherDims.start, dif_neg hm,
      Nat.add_zero, Nat.zero_add]
    unfold GatherDims.offCoord
    rw [dif_pos hk]

    have hsK : d.sKept = [(2 : Fin 3)] := by
      unfold GatherDims.sKept Shape.kept
      rw [hcoll, hob]
      have : List.filter (fun x : Fin 3 => decide (x ∉ [(0 : Fin 3), (1 : Fin 3)] ++ [])) (List.finRange 3) = [(2 : Fin 3)] := by
        decide
      exact this
    rw [getElem_of_eq _ _ hoff _ 0 (by rw [hsK]; rfl) _ (Nat.zero_lt_succ _)]
    rfl

end Cert.EmbNorm.Lib
-- ==== Proof.VarianceLaw.lean ====
import Mathlib.Algebra.BigOperators.Field
import Mathlib.Algebra.Order.BigOperators.Ring.Finset
import Mathlib.Data.EReal.Operations
import Mathlib.Tactic.Ring
import Mathlib.Tactic.FieldSimp
import Mathlib.Tactic.NormNum
import Idealize.ShloMosaic.PureOps.Ideal
import Idealize.ShloMosaic.PureOps.Ideal.Laws
import Idealize.ShloMosaic.Lib.ValueIdx
import proofs.«413776_j39324720562872_4_alg».proof.Proof.Spec

noncomputable section

namespace Cert.EmbNorm

open Idealize.ShloMosaic Idealize.ShloMosaic.ValueIdx

theorem mean_sq_dev {ι : Type} [Fintype ι] (x : ι → ℝ) (N : ℝ) (hN : (Fintype.card ι : ℝ) = N) (h0 : N ≠ 0) :
    (∑ i, (x i - (∑ j, x j) / N) * (x i - (∑ j, x j) / N)) / N
      = (∑ i, x i * x i) / N - (∑ j, x j) / N * ((∑ j, x j) / N) := by
  have hexp : ∀ i, (x i - (∑ j, x j) / N) * (x i - (∑ j, x j) / N)
      = x i * x i - 2 * ((∑ j, x j) / N) * x i + (∑ j, x j) / N * ((∑ j, x j) / N) := fun i => by ring
  simp only [hexp, Finset.sum_add_distrib, Finset.sum_sub_distrib, ← Finset.mul_sum, Finset.sum_const, Finset.card_univ,
    nsmul_eq_mul, hN]
  field_simp
  ring

theorem mean_sq_dev_nonneg {ι : Type} [Fintype ι] (x : ι → ℝ) (m N : ℝ) (h0 : 0 < N) :
    0 ≤ (∑ i, (x i - m) * (x i - m)) / N :=
  div_nonneg (Finset.sum_nonneg fun i _ => mul_self_nonneg _) h0.le

theorem batch_eq : batch = ((65536 : ℝ) : EReal) := by
  unfold batch
  simp [Ideal.ofBits, Ideal.ieee, -EReal.coe_mul]
  norm_num

theorem zero_eq : zero = 0 := Ideal.ofBits_zero_f32

theorem coe_sum {ι : Type} (s : Finset ι) (x : ι → ℝ) : ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

theorem div_batch (r : ℝ) : Ideal.div (r : EReal) batch = ((r / 65536 : ℝ) : EReal) := by
  rw [batch_eq, Ideal.div_coe (by norm_num), ← EReal.coe_mul]
  congr 1
  ring

theorem var_eq_centered (tbl : STab.Idx → EReal) (idx : IVec SIdx 32) (hf : FiniteTab tbl) (f : Fin 32) (d : Fin 64) :
    var tbl idx f d
      = Ideal.div (∑ b : Fin 65536, (emb tbl idx b f d - mean tbl idx f d) * (emb tbl idx b f d - mean tbl idx f d))
          batch := by
  choose g hg using hf

  have he : ∀ b, emb tbl idx b f d = ((g (ix3 f (rowOf (idx (ix2 b f))) d) : ℝ) : EReal) := fun b => hg _
  generalize hx : (fun b : Fin 65536 => g (ix3 f (rowOf (idx (ix2 b f))) d)) = x at he
  have he' : ∀ b, emb tbl idx b f d = ((x b : ℝ) : EReal) := fun b => by rw [he b, ← hx]
  have hmean : mean tbl idx f d = (((∑ b, x b) / 65536 : ℝ) : EReal) := by
    unfold mean total
    simp only [he']
    rw [← coe_sum, div_batch]
  have hcard : ((Fintype.card (Fin 65536) : ℕ) : ℝ) = 65536 := by simp
  unfold var totalSq
  rw [hmean, zero_eq]
  simp only [he', ← EReal.coe_mul, ← EReal.coe_sub, ← coe_sum, div_batch]
  rw [mean_sq_dev x 65536 hcard (by norm_num)]
  rw [← EReal.coe_zero, max_eq_left]
  rw [← mean_sq_dev x 65536 hcard (by norm_num)]
  exact EReal.coe_nonneg.mpr (mean_sq_dev_nonneg x _ 65536 (by norm_num))

end Cert.EmbNorm

end
-- ==== Proof.RefValue.lean ====
import Idealize.ShloMosaic.Lib.ValueIdx
import Idealize.ShloMosaic.Lib.IdealHost
import Idealize.ShloMosaic.Lib.Pipeline.Value
import Idealize.ShloMosaic.PureOps.Ideal.Laws
import proofs.«413776_j39324720562872_4_alg».proof.Proof.Spec
import proofs.«413776_j39324720562872_4_alg».proof.Proof.RefTerm
import proofs.«413776_j39324720562872_4_alg».proof.Proof.LibGatherPairs
import proofs.«413776_j39324720562872_4_alg».proof.Proof.VarianceLaw

noncomputable section

namespace Cert.ReferenceIdeal.HandValue

open Cert.ReferenceIdeal Cert.ReferenceIdeal.Hand Idealize.ShloMosaic Idealize.ShloMosaic.ValueIdx
open Cert.ReferenceIdeal.Facts₀ Cert.ReferenceIdeal.Facts
open Cert.EmbNorm (emb mean var scale batch eps zero rowOf InRange FiniteTab)

theorem concat2_left {α : Type} {t s₁ s₂ : Shape} (a : Fin t.rank) (x₁ : s₁.Idx → α) (x₂ : s₂.Idx → α)
    (h : Shape.Concatenates [s₁, s₂] t a) (j : t.Idx) (hr : s₁.rank = t.rank) (i : s₁.Idx)
    (hi : ∀ b : Fin s₁.rank, b.cast hr ≠ a → (i b).val = (j (b.cast hr)).val)
    (ha : (i (a.cast hr.symm)).val = (j a).val) :
    concatenate t a [⟨s₁, x₁⟩, ⟨s₂, x₂⟩] h j = x₁ i :=
  concatenate_apply_piece a [⟨s₁, x₁⟩, ⟨s₂, x₂⟩] h j 0 (Nat.zero_lt_succ _) s₁ x₁ rfl hr 0 rfl i hi (by rw [Nat.zero_add]; exact ha)

theorem concat2_right {α : Type} {t s₁ s₂ : Shape} (a : Fin t.rank) (x₁ : s₁.Idx → α) (x₂ : s₂.Idx → α)
    (h : Shape.Concatenates [s₁, s₂] t a) (j : t.Idx) (hr1 : s₁.rank = t.rank) (hr : s₂.rank = t.rank) (i : s₂.Idx)
    (hi : ∀ b : Fin s₂.rank, b.cast hr ≠ a → (i b).val = (j (b.cast hr)).val)
    (ha : s₁.size (a.cast hr1.symm) + (i (a.cast hr.symm)).val = (j a).val) :
    concatenate t a [⟨s₁, x₁⟩, ⟨s₂, x₂⟩] h j = x₂ i :=
  concatenate_apply_piece a [⟨s₁, x₁⟩, ⟨s₂, x₂⟩] h j 1 (Nat.succ_lt_succ (Nat.zero_lt_succ _)) s₂ x₂ rfl hr
    (s₁.size (a.cast hr1.symm))
    (by show (if h : s₁.rank = t.rank then s₁.size (a.cast h.symm) else 0) + 0 = _; rw [dif_pos hr1, Nat.add_zero])
    i hi ha

private theorem slt_zero_false (x : BitVec 32) (h : 0 ≤ x.toInt) : x.slt 0#32 = false := by
  rw [BitVec.slt, decide_eq_false_iff_not, not_lt, BitVec.toInt_zero]
  exact h

private theorem toInt_ofNat_small (n : Nat) (h : n < 2 ^ 31) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

theorem featIota_apply (f : Fin 32) : featIota (ix2 (0 : Fin 1) f) = BitVec.ofNat 32 f.val := by
  unfold featIota
  rw [broadcastInDim_apply _ _ _ _ (ix1 f) (fun a => match a with | ⟨0, _⟩ => by simp)]
  rfl

theorem featWrapped_apply (f : Fin 32) : featWrapped (ix2 (0 : Fin 1) f) = BitVec.ofNat 32 f.val := by
  unfold featWrapped
  rw [select_apply, featIota_apply]
  have hc : cmpi CmpIPredicate.slt featIota (broadcastInDim S1x32 ![] bcast_S_S1x32 (constantI S_ 32 0#32)) (ix2 (0 : Fin 1) f)
      = 0#1 := by
    show IntOp.cmpi .slt (featIota (ix2 0 f)) (broadcastInDim S1x32 ![] bcast_S_S1x32 (constantI S_ 32 0#32) (ix2 0 f)) = 0#1
    rw [featIota_apply, broadcastInDim_scalar_apply]
    show BitVec.ofBool ((BitVec.ofNat 32 f.val).slt 0#32) = 0#1
    rw [slt_zero_false _ (by rw [toInt_ofNat_small _ (by omega)]; omega)]
    rfl
  rw [hc, select_zero]

theorem rowWrapped_apply (a0 : IVec S65536x32 32) (hr : InRange a0) (b : Fin 65536) (f : Fin 32) :
    rowWrapped a0 (ix2 b f) = a0 (ix2 b f) := by
  unfold rowWrapped
  rw [select_apply]
  have hc : cmpi CmpIPredicate.slt a0 (broadcastInDim S65536x32 ![] bcast_S_S65536x32 (constantI S_ 32 0#32)) (ix2 b f) = 0#1 := by
    show IntOp.cmpi .slt (a0 (ix2 b f)) (broadcastInDim S65536x32 ![] bcast_S_S65536x32 (constantI S_ 32 0#32) (ix2 b f)) = 0#1
    rw [broadcastInDim_scalar_apply]
    show BitVec.ofBool ((a0 (ix2 b f)).slt 0#32) = 0#1
    rw [slt_zero_false _ (hr b f).1]
    rfl
  rw [hc, select_zero]

theorem starts_feat (a0 : IVec S65536x32 32) (b : Fin 65536) (f : Fin 32) :
    starts a0 (ix3 b f (0 : Fin 2)) = BitVec.ofNat 32 f.val := by
  unfold starts
  rw [concat2_left (t := S65536x32x2) (s₁ := S65536x32x1) (s₂ := S65536x32x1) (2 : Fin 3) _ _ _ (ix3 b f (0 : Fin 2)) rfl (ix3 b f (0 : Fin 1))
    (fun a ha => match a with | ⟨0, _⟩ => rfl | ⟨1, _⟩ => rfl | ⟨2, _⟩ => absurd rfl ha) rfl]
  rw [broadcastInDim_apply _ _ _ _ (ix2 b f) (fun a => match a with | ⟨0, _⟩ => by simp | ⟨1, _⟩ => by simp)]
  rw [broadcastInDim_apply _ _ _ _ (ix2 (0 : Fin 1) f) (fun a => match a with | ⟨0, _⟩ => by simp | ⟨1, _⟩ => by simp)]
  exact featWrapped_apply f

theorem starts_row (a0 : IVec S65536x32 32) (hr : InRange a0) (b : Fin 65536) (f : Fin 32) :
    starts a0 (ix3 b f (1 : Fin 2)) = a0 (ix2 b f) := by
  unfold starts
  rw [concat2_right (t := S65536x32x2) (s₁ := S65536x32x1) (s₂ := S65536x32x1) (2 : Fin 3) _ _ _ (ix3 b f (1 : Fin 2)) rfl rfl (ix3 b f (0 : Fin 1))
    (fun a ha => match a with | ⟨0, _⟩ => rfl | ⟨1, _⟩ => rfl | ⟨2, _⟩ => absurd rfl ha) rfl]
  rw [broadcastInDim_apply _ _ _ _ (ix2 b f) (fun a => match a with | ⟨0, _⟩ => by simp | ⟨1, _⟩ => by simp)]
  exact rowWrapped_apply a0 hr b f

theorem gathered_apply (a0 : IVec S65536x32 32) (a2 : FVec Ideal S32x1001x64 .f32) (hr : InRange a0)
    (b : Fin 65536) (f : Fin 32) (d : Fin 64) :
    gathered (F := Ideal) a0 a2 (ix3 b f d) = emb a2 a0 b f d := by
  unfold gathered
  rw [Cert.EmbNorm.Lib.gather_pairs _ rfl rfl rfl rfl rfl a2 (starts a0) b f d (by decide) (by decide)]
  unfold emb rowOf
  congr 1
  funext a
  match a with
  | ⟨0, _⟩ =>
    apply Fin.ext
    show min (starts a0 (ix3 b f (0 : Fin 2))).toInt.toNat (32 - 1) = f.val
    rw [starts_feat, toInt_ofNat_small _ (by omega)]
    have := f.isLt
    omega
  | ⟨1, _⟩ =>
    apply Fin.ext
    show min (starts a0 (ix3 b f (1 : Fin 2))).toInt.toNat (1001 - 1) = min (a0 (ix2 b f)).toInt.toNat 1000
    rw [starts_row a0 hr]
  | ⟨2, _⟩ => rfl

theorem batchSum_apply (e : FVec Ideal S65536x32x64 .f32) (f : Fin 32) (d : Fin 64) :
    Host.reduceAdd e (constant (F := Ideal) S_ .f32 0x00000000#32) reducesTo_S65536x32x64_S32x64_d0 h_S_ (ix2 f d)
      = ∑ b : Fin 65536, e (ix3 b f d) := by
  have hR : S65536x32x64.Reduces [0] S32x64 := by decide
  rw [hostReduceAdd_apply, Ideal.hostReduceAdd_single _ hR, constant_apply, Ideal.ofBits_zero_f32, zero_add]
  show ∑ b : Fin 65536, e (hR.lift (ix2 f d) b) = _
  refine Finset.sum_congr rfl fun b _ => congrArg e ?_
  funext a
  match a with
  | ⟨0, _⟩ => rfl
  | ⟨1, _⟩ => rfl
  | ⟨2, _⟩ => rfl

theorem bmean_apply (e : FVec Ideal S65536x32x64 .f32) (f : Fin 32) (d : Fin 64) :
    bmean e (ix2 f d) = Ideal.div (∑ b : Fin 65536, e (ix3 b f d)) batch := by
  unfold bmean
  rw [hostDivf_apply, batchSum_apply, broadcastInDim_scalar_apply, constant_apply]
  rfl

theorem centred_apply (e : FVec Ideal S65536x32x64 .f32) (b : Fin 65536) (f : Fin 32) (d : Fin 64) :
    centred e (ix3 b f d) = e (ix3 b f d) - Ideal.div (∑ b' : Fin 65536, e (ix3 b' f d)) batch := by
  unfold centred
  rw [subf_apply]
  rw [broadcastInDim_apply _ _ _ _ (ix3 (0 : Fin 1) f d)
    (fun a => match a with | ⟨0, _⟩ => by simp | ⟨1, _⟩ => by simp | ⟨2, _⟩ => by simp)]
  rw [hostDivf_apply, broadcastInDim_apply _ _ _ _ (ix2 f d) (fun a => match a with | ⟨0, _⟩ => by simp | ⟨1, _⟩ => by simp),
    batchSum_apply, broadcastInDim_scalar_apply, constant_apply]
  rfl

theorem dofDivisor_apply : dofDivisor (F := Ideal) ix0 = batch := by
  unfold dofDivisor
  rw [subf_apply, constant_apply, sitofp_apply]
  show batch - (((0#32 : BitVec 32).toInt : ℝ) : EReal) = batch
  simp

theorem dof_pos : FloatOps.cmpf (F := Ideal) (φ := .f32) .ogt batch (Ideal.ofBits .f32 0x00000000#32) = 1#1 := by
  rw [Ideal.cmpf_def, Ideal.ofBits_zero_f32, Cert.EmbNorm.batch_eq]
  unfold Ideal.cmp
  simp

theorem bvar_apply (e : FVec Ideal S65536x32x64 .f32) (f : Fin 32) (d : Fin 64) :
    bvar e (ix2 f d) = Ideal.div (∑ b : Fin 65536, centred e (ix3 b f d) * centred e (ix3 b f d)) batch := by
  unfold bvar
  rw [select_apply, broadcastInDim_scalar_apply, cmpf_apply, dofDivisor_apply, constant_apply, dof_pos, select_one,
    hostDivf_apply, batchSum_apply, broadcastInDim_scalar_apply, dofDivisor_apply]
  rfl

theorem overBatch_apply (x : FVec Ideal S32x64 .f32) (b : Fin 65536) (f : Fin 32) (d : Fin 64) :
    overBatch x (ix3 b f d) = x (ix2 f d) := by
  unfold overBatch
  rw [broadcastInDim_apply _ _ _ _ (ix3 (0 : Fin 1) f d)
    (fun a => match a with | ⟨0, _⟩ => by simp | ⟨1, _⟩ => by simp | ⟨2, _⟩ => by simp)]
  rw [broadcastInDim_apply _ _ _ _ (ix2 f d) (fun a => match a with | ⟨0, _⟩ => by simp | ⟨1, _⟩ => by simp)]

theorem normalized_apply (e : FVec Ideal S65536x32x64 .f32) (mu v a3 a4 : FVec Ideal S32x64 .f32)
    (b : Fin 65536) (f : Fin 32) (d : Fin 64) :
    normalized e mu v a3 a4 (ix3 b f d)
      = max ((e (ix3 b f d) - mu (ix2 f d)) * Ideal.rsqrt (v (ix2 f d) + eps) * a3 (ix2 f d) + a4 (ix2 f d)) zero := by
  unfold normalized
  rw [maximumf_apply, addf_apply, mulf_apply, mulf_apply, subf_apply, overBatch_apply, overBatch_apply, overBatch_apply,
    overBatch_apply, broadcastInDim_scalar_apply, constant_apply]
  show max (_ * Ideal.rsqrt (v (ix2 f d) + broadcastInDim S32x64 ![] bcast_S_S32x64 (constant (F := Ideal) S_ .f32 0x3727C5AC#32) (ix2 f d)) * _ + _) _ = _
  rw [broadcastInDim_scalar_apply, constant_apply]
  rfl

theorem refOut_eq (a0 : IVec S65536x32 32) (a1 : FVec Ideal S65536x16 .f32) (a2 : FVec Ideal S32x1001x64 .f32)
    (a3 a4 : FVec Ideal S32x64 .f32) (hr : Cert.EmbNorm.InRange a0) (hf : Cert.EmbNorm.FiniteTab a2) :
    refOut (F := Ideal) a0 a1 a2 a3 a4 = Cert.EmbNorm.out a0 a1 a2 a3 a4 := by

  have hmean : ∀ (f : Fin 32) (d : Fin 64), bmean (gathered (F := Ideal) a0 a2) (ix2 f d) = mean a2 a0 f d := fun f d => by
    rw [bmean_apply]
    simp only [gathered_apply a0 a2 hr]
    rfl
  have hvar : ∀ (f : Fin 32) (d : Fin 64), bvar (gathered (F := Ideal) a0 a2) (ix2 f d) = var a2 a0 f d := fun f d => by
    rw [bvar_apply, Cert.EmbNorm.var_eq_centered a2 a0 hf]
    simp only [centred_apply, gathered_apply a0 a2 hr]
    rfl
  funext i
  obtain ⟨b, j, rfl⟩ : ∃ (b : Fin 65536) (j : Fin 2064), i = ix2 b j := ⟨i 0, i 1, eq_ix2 i⟩
  unfold refOut Cert.EmbNorm.out
  by_cases h : j.val < 2048
  ·
    have h' : ((ix2 b j : S65536x2064.Idx) 1).val < 2048 := h
    rw [dif_pos h']
    rw [concat2_left (t := S65536x2064) (s₁ := S65536x2048) (s₂ := S65536x16) (1 : Fin 2) _ _ _ (ix2 b j) rfl (ix2 b (⟨j.val, h⟩ : Fin 2048))
      (fun a ha => match a with | ⟨0, _⟩ => rfl | ⟨1, _⟩ => absurd rfl ha) rfl]
    rw [shapeCast_apply _ _ _ (ix3 b (⟨j.val / 64, by omega⟩ : Fin 32) (⟨j.val % 64, Nat.mod_lt _ (by decide)⟩ : Fin 64)) (by
      rw [Shape.rowMajor_val_three, Shape.rowMajor_val_two]
      show (b.val * 32 + j.val / 64) * 64 + j.val % 64 = b.val * 2048 + j.val
      omega)]
    rw [normalized_apply, gathered_apply a0 a2 hr, hmean, hvar]
    rfl
  ·
    have h' : ¬ ((ix2 b j : S65536x2064.Idx) 1).val < 2048 := h
    rw [dif_neg h']
    have hj := j.isLt
    rw [concat2_right (t := S65536x2064) (s₁ := S65536x2048) (s₂ := S65536x16) (1 : Fin 2) _ _ _ (ix2 b j) rfl rfl (ix2 b (⟨j.val - 2048, by omega⟩ : Fin 16))
      (fun a ha => match a with | ⟨0, _⟩ => rfl | ⟨1, _⟩ => absurd rfl ha) (by show 2048 + (j.val - 2048) = j.val; omega)]

end Cert.ReferenceIdeal.HandValue

end
-- ==== Proof.PreDecode.lean ====
import proofs.«413776_j39324720562872_4_alg».proof.Proof.Spec
import proofs.«413776_j39324720562872_4_alg».proof.Pre_finite_inputs
import proofs.«413776_j39324720562872_4_alg».proof.Proof.Gen.Pre_finite_inputs
import Idealize.ShloMosaic.Lib.ReduceAll
import Idealize.ShloMosaic.Lib.ValueIdx
import Idealize.ShloMosaic.Lib.WordArith

noncomputable section

namespace Cert.EmbNorm

open Idealize.ShloMosaic Idealize.ShloMosaic.ValueIdx

instance : Subsingleton Cert.Pre_finite_inputs.S_.Idx := ⟨fun a b => funext fun d => d.elim0⟩

theorem ofBits_posInf : Ideal.ofBits .f32 0x7F800000#32 = (⊤ : EReal) := by
  simp [Ideal.ofBits, Ideal.ieee]

theorem real_of_abs_lt_top (x : EReal) (hx : max x (-x) < ⊤) : ∃ r : ℝ, x = (r : EReal) := by
  induction x using EReal.rec with
  | bot => simp at hx
  | coe r => exact ⟨r, rfl⟩
  | top => simp at hx

theorem inRange_of_pre [Cert.Pre_finite_inputs.Facts] (a0 : IVec Cert.Pre_finite_inputs.S65536x32 32)
    (a1 : FVec Ideal Cert.Pre_finite_inputs.S65536x16 .f32) (a2 : FVec Ideal Cert.Pre_finite_inputs.S32x1001x64 .f32)
    (a3 a4 : FVec Ideal Cert.Pre_finite_inputs.S32x64 .f32)
    (h : Cert.Pre_finite_inputs.fn (F := Ideal) a0 a1 a2 a3 a4 = fun _ => 1#1) : InRange a0 := by
  intro b f
  have h0 := congrFun h ValueIdx.ix0
  dsimp only [Cert.Pre_finite_inputs.fn, Cert.Pre_finite_inputs.fn_part1] at h0

  obtain ⟨-, h5⟩ := IntOp.andi_eq_one.1 h0
  have e := Host.reduce_andi_all _ _ _ _ _ h5 (ix2 b f)
  obtain ⟨e1, e2⟩ := IntOp.andi_eq_one.1 e
  have g1 : (0#32 : BitVec 32).toInt ≤ (a0 (ix2 b f)).toInt := IntOp.cmpi_sge.1 e1
  have g2 : (a0 (ix2 b f)).toInt < (1001#32 : BitVec 32).toInt := IntOp.cmpi_slt.1 e2
  have c0 : (0#32 : BitVec 32).toInt = 0 := by decide
  have c1 : (1001#32 : BitVec 32).toInt = 1001 := by decide
  exact ⟨c0 ▸ g1, c1 ▸ g2⟩

theorem finiteTab_of_pre [Cert.Pre_finite_inputs.Facts] (a0 : IVec Cert.Pre_finite_inputs.S65536x32 32)
    (a1 : FVec Ideal Cert.Pre_finite_inputs.S65536x16 .f32) (a2 : FVec Ideal Cert.Pre_finite_inputs.S32x1001x64 .f32)
    (a3 a4 : FVec Ideal Cert.Pre_finite_inputs.S32x64 .f32)
    (h : Cert.Pre_finite_inputs.fn (F := Ideal) a0 a1 a2 a3 a4 = fun _ => 1#1) : FiniteTab a2 := by
  intro i
  have h0 := congrFun h ValueIdx.ix0
  dsimp only [Cert.Pre_finite_inputs.fn, Cert.Pre_finite_inputs.fn_part1] at h0

  obtain ⟨h1234, -⟩ := IntOp.andi_eq_one.1 h0
  obtain ⟨h123, -⟩ := IntOp.andi_eq_one.1 h1234
  obtain ⟨h12, -⟩ := IntOp.andi_eq_one.1 h123
  obtain ⟨-, h2⟩ := IntOp.andi_eq_one.1 h12
  have e := Host.reduce_andi_all _ _ _ _ _ h2 i

  have e' : Ideal.cmp .olt (max (a2 i) (-(a2 i))) (Ideal.ofBits .f32 0x7F800000#32) = 1#1 := e
  rw [ofBits_posInf] at e'
  exact real_of_abs_lt_top (a2 i) (of_decide_eq_true ((WordArith.ofBool_eq_one_iff _).1 e'))

end Cert.EmbNorm

end
-- ==== Proof.lean ====
import proofs.«413776_j39324720562872_4_alg».proof.Defs
import proofs.«413776_j39324720562872_4_alg».proof.Proof.Gen.Kernel
import proofs.«413776_j39324720562872_4_alg».proof.Proof.Gen.Kernel.Skeleton
import proofs.«413776_j39324720562872_4_alg».proof.Proof.Gen.Kernel.Launch
import proofs.«413776_j39324720562872_4_alg».proof.Proof.Gen.Kernel.Regions
import proofs.«413776_j39324720562872_4_alg».proof.Proof.Gen.Kernel.Points
import proofs.«413776_j39324720562872_4_alg».proof.Proof.Gen.KernelIdeal
import proofs.«413776_j39324720562872_4_alg».proof.Proof.Gen.KernelIdeal.Skeleton
import proofs.«413776_j39324720562872_4_alg».proof.Proof.Gen.KernelIdeal.Launch
import proofs.«413776_j39324720562872_4_alg».proof.Proof.Gen.KernelIdeal.Regions
import proofs.«413776_j39324720562872_4_alg».proof.Proof.Gen.KernelIdeal.Points
import proofs.«413776_j39324720562872_4_alg».proof.Proof.Gen.ReferenceIdeal
import proofs.«413776_j39324720562872_4_alg».proof.Proof.Gen.Pre_finite_inputs
import proofs.«413776_j39324720562872_4_alg».proof.Proof.RunBits
import proofs.«413776_j39324720562872_4_alg».proof.Proof.Run
import proofs.«413776_j39324720562872_4_alg».proof.Proof.Bridge
import proofs.«413776_j39324720562872_4_alg».proof.Proof.RefRun
import proofs.«413776_j39324720562872_4_alg».proof.Proof.RefValue
import proofs.«413776_j39324720562872_4_alg».proof.Proof.PreDecode
import Idealize.ShloMosaic.Adequacy
import Idealize.ShloMosaic.Init

noncomputable section

namespace Cert.Proof

open Idealize.ShloMosaic Idealize.SL.Sem

theorem frame_Kernel : Cert.frame_Kernel := fun m ρ _ => Cert.Kernel.Run.frame m ρ

theorem frame_KernelIdeal : Cert.frame_KernelIdeal := fun m ρ _ => Cert.KernelIdeal.Run.frame m ρ

theorem frame_ReferenceIdeal : Cert.frame_ReferenceIdeal := fun m ρ _ =>
  (θ_run Cert.ReferenceIdeal.defs _ _).mono (fun _ h c => (h c).2) (Cert.ReferenceIdeal.Hand.run (F := Ideal) m ρ)

theorem algebraic :
    Cert.algebraic_KernelIdeal_ReferenceIdeal := by
  intro m ρ m' ρ' hpre hagree
  refine ⟨_, (θ_run Cert.KernelIdeal.defs _ _).mono
    (fun _ h c => ⟨(h c).1.trans (Cert.KernelIdeal.Bridge.kernel_out m ρ c), (h c).2⟩) (Cert.KernelIdeal.Run.result (F := Ideal) m ρ), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4⟩ := hagree c
  rw [e0, e1, e2, e3, e4]
  exact Cert.ReferenceIdeal.HandValue.refOut_eq _ _ _ _ _ (Cert.EmbNorm.inRange_of_pre _ _ _ _ _ (hpre c))
    (Cert.EmbNorm.finiteTab_of_pre _ _ _ _ _ (hpre c))

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
